-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S50000 : Shape := ⟨1, ![50000]⟩
abbrev S50000x74 : Shape := ⟨2, ![50000, 74]⟩
abbrev S2x2000000 : Shape := ⟨2, ![2, 2000000]⟩
abbrev S2x500000 : Shape := ⟨2, ![2, 500000]⟩
abbrev S100000x64 : Shape := ⟨2, ![100000, 64]⟩
abbrev S50000x64 : Shape := ⟨2, ![50000, 64]⟩
abbrev S74x64 : Shape := ⟨2, ![74, 64]⟩
abbrev S64 : Shape := ⟨1, ![64]⟩
abbrev S64x64 : Shape := ⟨2, ![64, 64]⟩
abbrev S_ : Shape := ⟨0, ![]⟩
abbrev S1x2000000 : Shape := ⟨2, ![1, 2000000]⟩
abbrev S2000000 : Shape := ⟨1, ![2000000]⟩
abbrev S1x500000 : Shape := ⟨2, ![1, 500000]⟩
abbrev S500000 : Shape := ⟨1, ![500000]⟩

class Facts : Prop where
  bcast_S_S50000x74 : S_.BroadcastsInDim S50000x74 (![] : Fin 0 → Fin S50000x74.rank)
  reducesTo_S50000x74_S_d0_1 : S50000x74.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S74x64 : S_.BroadcastsInDim S74x64 (![] : Fin 0 → Fin S74x64.rank)
  reducesTo_S74x64_S_d0_1 : S74x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_
  slices_S2x2000000_S1x2000000_1_0 : S2x2000000.Slices ![1, 0] S1x2000000
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  slices_S2x500000_S1x500000_1_0 : S2x500000.Slices ![1, 0] S1x500000

variable [Facts]

def fn_part8 {F : FTy → Type} [FloatOps F] (main_v130 : IVec S_ 1) (main_v139 : IVec S500000 1) (main_c_49 : IVec S_ 1) : IVec S_ 1 :=
  let main_v140 : IVec S_ 1 := (fun x v => Host.reduce IntOp.andi x v reducesTo_S500000_S_d0 h_S_) main_v139 main_c_49
  let main_v141 : IVec S_ 1 := andi main_v130 main_v140
  main_v141

def fn_part7 {F : FTy → Type} [FloatOps F] (main_arg4 : IVec S2x500000 32) (main_v119 : IVec S_ 1) (main_v121 : IVec S500000 32) : IVec S_ 1 :=
  let main_c_44 : IVec S_ 32 := constantI S_ 32 0#32
  let main_v122 : IVec S500000 32 := broadcastInDim S500000 ![] bcast_S_S500000 main_c_44
  let main_v123 : IVec S500000 1 := cmpi .sge main_v121 main_v122
  let main_v124 : IVec S1x500000 32 := (extractStridedSlice S1x500000 ![0, 0] · slices_S2x500000_S1x500000_0_0) main_arg4
  let main_v125 : IVec S500000 32 := shapeCast S500000 main_v124 shapeCasts_S1x500000_S500000
  let main_c_45 : IVec S_ 32 := constantI S_ 32 100000#32
  let main_v126 : IVec S500000 32 := broadcastInDim S500000 ![] bcast_S_S500000 main_c_45
  let main_v127 : IVec S500000 1 := cmpi .slt main_v125 main_v126
  let main_v128 : IVec S500000 1 := andi main_v123 main_v127
  let main_c_46 : IVec S_ 1 := constantI S_ 1 1#1
  let main_v129 : IVec S_ 1 := (fun x v => Host.reduce IntOp.andi x v reducesTo_S500000_S_d0 h_S_) main_v128 main_c_46
  let main_v130 : IVec S_ 1 := andi main_v119 main_v129
  let main_v131 : IVec S1x500000 32 := (extractStridedSlice S1x500000 ![1, 0] · slices_S2x500000_S1x500000_1_0) main_arg4
  let main_v132 : IVec S500000 32 := shapeCast S500000 main_v131 shapeCasts_S1x500000_S500000
  let main_c_47 : IVec S_ 32 := constantI S_ 32 0#32
  let main_v133 : IVec S500000 32 := broadcastInDim S500000 ![] bcast_S_S500000 main_c_47
  let main_v134 : IVec S500000 1 := cmpi .sge main_v132 main_v133
  let main_v135 : IVec S1x500000 32 := (extractStridedSlice S1x500000 ![1, 0] · slices_S2x500000_S1x500000_1_0) main_arg4
  let main_v136 : IVec S500000 32 := shapeCast S500000 main_v135 shapeCasts_S1x500000_S500000
  let main_c_48 : IVec S_ 32 := constantI S_ 32 50000#32
  let main_v137 : IVec S500000 32 := broadcastInDim S500000 ![] bcast_S_S500000 main_c_48
  let main_v138 : IVec S500000 1 := cmpi .slt main_v136 main_v137
  let main_v139 : IVec S500000 1 := andi main_v134 main_v138
  let main_c_49 : IVec S_ 1 := constantI S_ 1 1#1
  fn_part8 (F := F) main_v130 main_v139 main_c_49

def fn_part6 {F : FTy → Type} [FloatOps F] (main_arg3 : IVec S2x2000000 32) (main_arg4 : IVec S2x500000 32) (main_v97 : IVec S_ 1) (main_v101 : IVec S2000000 1) (main_v102 : IVec S1x2000000 32) : IVec S_ 1 :=
  let main_v103 : IVec S2000000 32 := shapeCast S2000000 main_v102 shapeCasts_S1x2000000_S2000000
  let main_c_39 : IVec S_ 32 := constantI S_ 32 100000#32
  let main_v104 : IVec S2000000 32 := broadcastInDim S2000000 ![] bcast_S_S2000000 main_c_39
  let main_v105 : IVec S2000000 1 := cmpi .slt main_v103 main_v104
  let main_v106 : IVec S2000000 1 := andi main_v101 main_v105
  let main_c_40 : IVec S_ 1 := constantI S_ 1 1#1
  let main_v107 : IVec S_ 1 := (fun x v => Host.reduce IntOp.andi x v reducesTo_S2000000_S_d0 h_S_) main_v106 main_c_40
  let main_v108 : IVec S_ 1 := andi main_v97 main_v107
  let main_v109 : IVec S1x2000000 32 := (extractStridedSlice S1x2000000 ![1, 0] · slices_S2x2000000_S1x2000000_1_0) main_arg3
  let main_v110 : IVec S2000000 32 := shapeCast S2000000 main_v109 shapeCasts_S1x2000000_S2000000
  let main_c_41 : IVec S_ 32 := constantI S_ 32 0#32
  let main_v111 : IVec S2000000 32 := broadcastInDim S2000000 ![] bcast_S_S2000000 main_c_41
  let main_v112 : IVec S2000000 1 := cmpi .sge main_v110 main_v111
  let main_v113 : IVec S1x2000000 32 := (extractStridedSlice S1x2000000 ![1, 0] · slices_S2x2000000_S1x2000000_1_0) main_arg3
  let main_v114 : IVec S2000000 32 := shapeCast S2000000 main_v113 shapeCasts_S1x2000000_S2000000
  let main_c_42 : IVec S_ 32 := constantI S_ 32 50000#32
  let main_v115 : IVec S2000000 32 := broadcastInDim S2000000 ![] bcast_S_S2000000 main_c_42
  let main_v116 : IVec S2000000 1 := cmpi .slt main_v114 main_v115
  let main_v117 : IVec S2000000 1 := andi main_v112 main_v116
  let main_c_43 : IVec S_ 1 := constantI S_ 1 1#1
  let main_v118 : IVec S_ 1 := (fun x v => Host.reduce IntOp.andi x v reducesTo_S2000000_S_d0 h_S_) main_v117 main_c_43
  let main_v119 : IVec S_ 1 := andi main_v108 main_v118
  let main_v120 : IVec S1x500000 32 := (extractStridedSlice S1x500000 ![0, 0] · slices_S2x500000_S1x500000_0_0) main_arg4
  let main_v121 : IVec S500000 32 := shapeCast S500000 main_v120 shapeCasts_S1x500000_S500000
  fn_part7 (F := F) main_arg4 main_v119 main_v121

def fn_part5 {F : FTy → Type} [FloatOps F] (main_arg0 : IVec S100000 32) (main_arg1 : IVec S50000 32) (main_arg3 : IVec S2x2000000 32) (main_arg4 : IVec S2x500000 32) (main_v83 : IVec S_ 1) (main_v84 : IVec S100000 32) : IVec S_ 1 :=
  let main_v85 : IVec S100000 1 := cmpi .sge main_arg0 main_v84
  let main_c_33 : IVec S_ 32 := constantI S_ 32 100000#32
  let main_v86 : IVec S100000 32 := broadcastInDim S100000 ![] bcast_S_S100000 main_c_33
  let main_v87 : IVec S100000 1 := cmpi .slt main_arg0 main_v86
  let main_v88 : IVec S100000 1 := andi main_v85 main_v87
  let main_c_34 : IVec S_ 1 := constantI S_ 1 1#1
  let main_v89 : IVec S_ 1 := (fun x v => Host.reduce IntOp.andi x v reducesTo_S100000_S_d0 h_S_) main_v88 main_c_34
  let main_v90 : IVec S_ 1 := andi main_v83 main_v89
  let main_c_35 : IVec S_ 32 := constantI S_ 32 0#32
  let main_v91 : IVec S50000 32 := broadcastInDim S50000 ![] bcast_S_S50000 main_c_35
  let main_v92 : IVec S50000 1 := cmpi .sge main_arg1 main_v91
  let main_c_36 : IVec S_ 32 := constantI S_ 32 50000#32
  let main_v93 : IVec S50000 32 := broadcastInDim S50000 ![] bcast_S_S50000 main_c_36
  let main_v94 : IVec S50000 1 := cmpi .slt main_arg1 main_v93
  let main_v95 : IVec S50000 1 := andi main_v92 main_v94
  let main_c_37 : IVec S_ 1 := constantI S_ 1 1#1
  let main_v96 : IVec S_ 1 := (fun x v => Host.reduce IntOp.andi x v reducesTo_S50000_S_d0 h_S_) main_v95 main_c_37
  let main_v97 : IVec S_ 1 := andi main_v90 main_v96
  let main_v98 : IVec S1x2000000 32 := (extractStridedSlice S1x2000000 ![0, 0] · slices_S2x2000000_S1x2000000_0_0) main_arg3
  let main_v99 : IVec S2000000 32 := shapeCast S2000000 main_v98 shapeCasts_S1x2000000_S2000000
  let main_c_38 : IVec S_ 32 := constantI S_ 32 0#32
  let main_v100 : IVec S2000000 32 := broadcastInDim S2000000 ![] bcast_S_S2000000 main_c_38
  let main_v101 : IVec S2000000 1 := cmpi .sge main_v99 main_v100
  let main_v102 : IVec S1x2000000 32 := (extractStridedSlice S1x2000000 ![0, 0] · slices_S2x2000000_S1x2000000_0_0) main_arg3
  fn_part6 (F := F) main_arg3 main_arg4 main_v97 main_v101 main_v102

def fn_part4 {F : FTy → Type} [FloatOps F] (main_arg0 : IVec S100000 32) (main_arg1 : IVec S50000 32) (main_arg3 : IVec S2x2000000 32) (main_arg4 : IVec S2x500000 32) (main_arg18 : FVec F S64x64 .f32) (main_arg19 : FVec F S64 .f32) (main_arg20 : FVec F S64x64 .f32) (main_v63 : IVec S_ 1) (main_v67 : IVec S_ 1) : IVec S_ 1 :=
  let main_v68 : IVec S_ 1 := andi main_v63 main_v67
  let main_v69 : FVec F S64x64 .f32 := Host.absf main_arg18
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_c_32 : IVec S_ 32 := constantI S_ 32 0#32
  let main_v84 : IVec S100000 32 := broadcastInDim S100000 ![] bcast_S_S100000 main_c_32
  fn_part5 (F := F) main_arg0 main_arg1 main_arg3 main_arg4 main_v83 main_v84

def fn_part3 {F : FTy → Type} [FloatOps F] (main_arg0 : IVec S100000 32) (main_arg1 : IVec S50000 32) (main_arg3 : IVec S2x2000000 32) (main_arg4 : IVec S2x500000 32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg0 main_arg1 main_arg3 main_arg4 main_arg18 main_arg19 main_arg20 main_v63 main_v67

def fn_part2 {F : FTy → Type} [FloatOps F] (main_arg0 : IVec S100000 32) (main_arg1 : IVec S50000 32) (main_arg3 : IVec S2x2000000 32) (main_arg4 : IVec S2x500000 32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg0 main_arg1 main_arg3 main_arg4 main_arg15 main_arg16 main_arg17 main_arg18 main_arg19 main_arg20 main_v48 main_v49 main_v50

def fn_part1 {F : FTy → Type} [FloatOps F] (main_arg0 : IVec S100000 32) (main_arg1 : IVec S50000 32) (main_arg3 : IVec S2x2000000 32) (main_arg4 : IVec S2x500000 32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_v13 : IVec S_ 1) (main_v16 : IVec S74x64 1) : IVec S_ 1 :=
  let main_c_5 : IVec S_ 1 := constantI S_ 1 1#1
  let main_v17 : IVec S_ 1 := (fun x v => Host.reduce IntOp.andi x v reducesTo_S74x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg3 main_arg4 main_arg11 main_arg12 main_arg13 main_arg14 main_arg15 main_arg16 main_arg17 main_arg18 main_arg19 main_arg20 main_v33

def fn {F : FTy → Type} [FloatOps F] (main_arg0 : IVec S100000 32) (main_arg1 : IVec S50000 32) (main_arg2 : FVec F S50000x74 .f32) (main_arg3 : IVec S2x2000000 32) (main_arg4 : IVec S2x500000 32) (main_arg5 : FVec F S100000x64 .f32) (main_arg6 : FVec F S50000x64 .f32) (main_arg7 : FVec F S74x64 .f32) (main_arg8 : FVec F S64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) : IVec S_ 1 :=
  let main_v0 : FVec F S50000x74 .f32 := Host.absf main_arg2
  let main_cst : FVec F S_ .f32 := constant S_ .f32 0x7F800000#32
  let main_v1 : FVec F S50000x74 .f32 := broadcastInDim S50000x74 ![] bcast_S_S50000x74 main_cst
  let main_v2 : IVec S50000x74 1 := cmpf .olt main_v0 main_v1
  let main_c : IVec S_ 1 := constantI S_ 1 1#1
  let main_v3 : IVec S_ 1 := (fun x v => Host.reduce IntOp.andi x v reducesTo_S50000x74_S_d0_1 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S74x64 .f32 := Host.absf main_arg7
  let main_cst_4 : FVec F S_ .f32 := constant S_ .f32 0x7F800000#32
  let main_v15 : FVec F S74x64 .f32 := broadcastInDim S74x64 ![] bcast_S_S74x64 main_cst_4
  let main_v16 : IVec S74x64 1 := cmpf .olt main_v14 main_v15
  fn_part1 (F := F) main_arg0 main_arg1 main_arg3 main_arg4 main_arg8 main_arg9 main_arg10 main_arg11 main_arg12 main_arg13 main_arg14 main_arg15 main_arg16 main_arg17 main_arg18 main_arg19 main_arg20 main_v13 main_v16
-- ==== Kernel.lean ====
abbrev S100000 : Shape := ⟨1, ![100000]⟩
abbrev S50000 : Shape := ⟨1, ![50000]⟩
abbrev S50000x74 : Shape := ⟨2, ![50000, 74]⟩
abbrev S2x2000000 : Shape := ⟨2, ![2, 2000000]⟩
abbrev S2x500000 : Shape := ⟨2, ![2, 500000]⟩
abbrev S100000x64 : Shape := ⟨2, ![100000, 64]⟩
abbrev S50000x64 : Shape := ⟨2, ![50000, 64]⟩
abbrev S74x64 : Shape := ⟨2, ![74, 64]⟩
abbrev S64 : Shape := ⟨1, ![64]⟩
abbrev S64x64 : Shape := ⟨2, ![64, 64]⟩
abbrev S1x2000000 : Shape := ⟨2, ![1, 2000000]⟩
abbrev S2000000 : Shape := ⟨1, ![2000000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S50000x1 : Shape := ⟨2, ![50000, 1]⟩
abbrev S1x64 : Shape := ⟨2, ![1, 64]⟩
abbrev S5000x74 : Shape := ⟨2, ![5000, 74]⟩
abbrev S5000x64 : Shape := ⟨2, ![5000, 64]⟩
abbrev S2000000x1 : Shape := ⟨2, ![2000000, 1]⟩
abbrev S2000000x64 : Shape := ⟨2, ![2000000, 64]⟩
abbrev S10000x64 : Shape := ⟨2, ![10000, 64]⟩
abbrev S1x500000 : Shape := ⟨2, ![1, 500000]⟩
abbrev S500000 : Shape := ⟨1, ![500000]⟩
abbrev S507904 : Shape := ⟨1, ![507904]⟩
abbrev S507904x1 : Shape := ⟨2, ![507904, 1]⟩
abbrev S507904x64 : Shape := ⟨2, ![507904, 64]⟩
abbrev S8192x64 : Shape := ⟨2, ![8192, 64]⟩
abbrev S8192 : Shape := ⟨1, ![8192]⟩

abbrev nBuf : Space → Nat
  | .hbm => 273
  | .vmem => 50
  | .smem => 0
  | _ => 0

abbrev hbmTy0_0 (i : Nat) : BufTy := match i % 128 with
  | 0 => ⟨S100000, .i32⟩
  | 1 => ⟨S50000, .i32⟩
  | 2 => ⟨S50000x74, .f32⟩
  | 3 => ⟨S2x2000000, .i32⟩
  | 4 => ⟨S2x500000, .i32⟩
  | 5 => ⟨S100000x64, .f32⟩
  | 6 => ⟨S50000x64, .f32⟩
  | 7 => ⟨S74x64, .f32⟩
  | 8 => ⟨S64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S1x2000000, .i32⟩
  | 22 => ⟨S2000000, .i32⟩
  | 23 => ⟨S1x2000000, .i32⟩
  | 24 => ⟨S2000000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S1, .i32⟩
  | 34 => ⟨S_, .i32⟩
  | 35 => ⟨S100000x1, .i32⟩
  | 36 => ⟨S100000x1, .i1⟩
  | 37 => ⟨S1x1, .i32⟩
  | 38 => ⟨S100000x1, .i32⟩
  | 39 => ⟨S100000x1, .i1⟩
  | 40 => ⟨S100000x1, .i1⟩
  | 41 => ⟨S_, .i1⟩
  | 42 => ⟨S100000, .i1⟩
  | 43 => ⟨S100000x64, .f32⟩
  | 44 => ⟨S100000x64, .i1⟩
  | 45 => ⟨S_, .f32⟩
  | 46 => ⟨S100000x64, .f32⟩
  | 47 => ⟨S100000x64, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S1, .i32⟩
  | 57 => ⟨S_, .i32⟩
  | 58 => ⟨S50000x1, .i32⟩
  | 59 => ⟨S50000x1, .i1⟩
  | 60 => ⟨S1x1, .i32⟩
  | 61 => ⟨S50000x1, .i32⟩
  | 62 => ⟨S50000x1, .i1⟩
  | 63 => ⟨S50000x1, .i1⟩
  | 64 => ⟨S_, .i1⟩
  | 65 => ⟨S50000, .i1⟩
  | 66 => ⟨S50000x64, .f32⟩
  | 67 => ⟨S50000x64, .i1⟩
  | 68 => ⟨S_, .f32⟩
  | 69 => ⟨S50000x64, .f32⟩
  | 70 => ⟨S50000x64, .f32⟩
  | 71 => ⟨S1x64, .f32⟩
  | 72 => ⟨S50000x64, .f32⟩
  | 73 => ⟨S_, .f32⟩
  | 74 => ⟨S2000000, .f32⟩
  | 75 => ⟨S_, .f32⟩
  | 76 => ⟨S50000, .f32⟩
  | 77 => ⟨S2000000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S_, .f32⟩
  | 84 => ⟨S100000, .f32⟩
  | 85 => ⟨S2000000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S1, .i32⟩
  | 100 => ⟨S_, .i32⟩
  | 101 => ⟨S2000000x1, .i32⟩
  | 102 => ⟨S2000000x1, .i1⟩
  | 103 => ⟨S1x1, .i32⟩
  | 104 => ⟨S2000000x1, .i32⟩
  | 105 => ⟨S2000000x1, .i1⟩
  | 106 => ⟨S2000000x1, .i1⟩
  | 107 => ⟨S_, .i1⟩
  | 108 => ⟨S2000000, .i1⟩
  | 109 => ⟨S2000000x64, .f32⟩
  | 110 => ⟨S2000000x64, .i1⟩
  | 111 => ⟨S_, .f32⟩
  | 112 => ⟨S2000000x64, .f32⟩
  | 113 => ⟨S2000000x64, .f32⟩
  | 114 => ⟨S_, .f32⟩
  | 115 => ⟨S50000x64, .f32⟩
  | 116 => ⟨S2000000x1, .i32⟩
  | 117 => ⟨S50000x64, .f32⟩
  | 118 => ⟨S50000x64, .f32⟩
  | 119 => ⟨S50000x64, .f32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S100000, .i32⟩

abbrev hbmTy0_1 (i : Nat) : BufTy := match i % 128 with
  | 0 => ⟨S1, .i32⟩
  | 1 => ⟨S_, .i32⟩
  | 2 => ⟨S2000000x1, .i32⟩
  | 3 => ⟨S2000000x1, .i1⟩
  | 4 => ⟨S1x1, .i32⟩
  | 5 => ⟨S2000000x1, .i32⟩
  | 6 => ⟨S2000000x1, .i1⟩
  | 7 => ⟨S2000000x1, .i1⟩
  | 8 => ⟨S_, .i1⟩
  | 9 => ⟨S2000000, .i1⟩
  | 10 => ⟨S2000000x64, .f32⟩
  | 11 => ⟨S2000000x64, .i1⟩
  | 12 => ⟨S_, .f32⟩
  | 13 => ⟨S2000000x64, .f32⟩
  | 14 => ⟨S2000000x64, .f32⟩
  | 15 => ⟨S_, .f32⟩
  | 16 => ⟨S100000x64, .f32⟩
  | 17 => ⟨S2000000x1, .i32⟩
  | 18 => ⟨S100000x64, .f32⟩
  | 19 => ⟨S100000x64, .f32⟩
  | 20 => ⟨S100000x64, .f32⟩
  | 21 => ⟨S1x64, .f32⟩
  | 22 => ⟨S100000x64, .f32⟩
  | 23 => ⟨S1x64, .f32⟩
  | 24 => ⟨S50000x64, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S1, .i32⟩
  | 34 => ⟨S_, .i32⟩
  | 35 => ⟨S2000000x1, .i32⟩
  | 36 => ⟨S2000000x1, .i1⟩
  | 37 => ⟨S1x1, .i32⟩
  | 38 => ⟨S2000000x1, .i32⟩
  | 39 => ⟨S2000000x1, .i1⟩
  | 40 => ⟨S2000000x1, .i1⟩
  | 41 => ⟨S_, .i1⟩
  | 42 => ⟨S2000000, .i1⟩
  | 43 => ⟨S2000000x64, .f32⟩
  | 44 => ⟨S2000000x64, .i1⟩
  | 45 => ⟨S_, .f32⟩
  | 46 => ⟨S2000000x64, .f32⟩
  | 47 => ⟨S2000000x64, .f32⟩
  | 48 => ⟨S_, .f32⟩
  | 49 => ⟨S50000x64, .f32⟩
  | 50 => ⟨S2000000x1, .i32⟩
  | 51 => ⟨S50000x64, .f32⟩
  | 52 => ⟨S50000x64, .f32⟩
  | 53 => ⟨S50000x64, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S1, .i32⟩
  | 63 => ⟨S_, .i32⟩
  | 64 => ⟨S2000000x1, .i32⟩
  | 65 => ⟨S2000000x1, .i1⟩
  | 66 => ⟨S1x1, .i32⟩
  | 67 => ⟨S2000000x1, .i32⟩
  | 68 => ⟨S2000000x1, .i1⟩
  | 69 => ⟨S2000000x1, .i1⟩
  | 70 => ⟨S_, .i1⟩
  | 71 => ⟨S2000000, .i1⟩
  | 72 => ⟨S2000000x64, .f32⟩
  | 73 => ⟨S2000000x64, .i1⟩
  | 74 => ⟨S_, .f32⟩
  | 75 => ⟨S2000000x64, .f32⟩
  | 76 => ⟨S2000000x64, .f32⟩
  | 77 => ⟨S_, .f32⟩
  | 78 => ⟨S100000x64, .f32⟩
  | 79 => ⟨S2000000x1, .i32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S1x64, .f32⟩
  | 86 => ⟨S50000x64, .f32⟩
  | 87 => ⟨S1x500000, .i32⟩
  | 88 => ⟨S500000, .i32⟩
  | 89 => ⟨S1x500000, .i32⟩
  | 90 => ⟨S500000, .i32⟩
  | 91 => ⟨S_, .i32⟩
  | 92 => ⟨S_, .i32⟩
  | 93 => ⟨S507904, .i32⟩
  | 94 => ⟨S_, .i32⟩
  | 95 => ⟨S_, .i32⟩
  | 96 => ⟨S507904, .i32⟩
  | 97 => ⟨S_, .i32⟩
  | 98 => ⟨S507904, .i32⟩
  | 99 => ⟨S507904, .i1⟩
  | 100 => ⟨S_, .i32⟩
  | 101 => ⟨S507904, .i32⟩
  | 102 => ⟨S507904, .i32⟩
  | 103 => ⟨S507904, .i32⟩
  | 104 => ⟨S507904x1, .i32⟩
  | 105 => ⟨S1, .i32⟩
  | 106 => ⟨S_, .i32⟩
  | 107 => ⟨S507904x1, .i32⟩
  | 108 => ⟨S507904x1, .i1⟩
  | 109 => ⟨S1x1, .i32⟩
  | 110 => ⟨S507904x1, .i32⟩
  | 111 => ⟨S507904x1, .i1⟩
  | 112 => ⟨S507904x1, .i1⟩
  | 113 => ⟨S_, .i1⟩
  | 114 => ⟨S507904, .i1⟩
  | 115 => ⟨S507904x64, .f32⟩
  | 116 => ⟨S507904x64, .i1⟩
  | 117 => ⟨S_, .f32⟩
  | 118 => ⟨S507904x64, .f32⟩
  | 119 => ⟨S507904x64, .f32⟩
  | 120 => ⟨S_, .i32⟩
  | 121 => ⟨S507904, .i32⟩
  | 122 => ⟨S507904, .i1⟩
  | 123 => ⟨S_, .i32⟩
  | 124 => ⟨S507904, .i32⟩
  | 125 => ⟨S507904, .i32⟩
  | 126 => ⟨S507904, .i32⟩
  | 127 => ⟨S507904x1, .i32⟩
  | _ => ⟨S100000, .i32⟩

abbrev hbmTy0_2 (i : Nat) : BufTy := match i % 128 with
  | 0 => ⟨S1, .i32⟩
  | 1 => ⟨S_, .i32⟩
  | 2 => ⟨S507904x1, .i32⟩
  | 3 => ⟨S507904x1, .i1⟩
  | 4 => ⟨S1x1, .i32⟩
  | 5 => ⟨S507904x1, .i32⟩
  | 6 => ⟨S507904x1, .i1⟩
  | 7 => ⟨S507904x1, .i1⟩
  | 8 => ⟨S_, .i1⟩
  | 9 => ⟨S507904, .i1⟩
  | 10 => ⟨S507904x64, .f32⟩
  | 11 => ⟨S507904x64, .i1⟩
  | 12 => ⟨S_, .f32⟩
  | 13 => ⟨S507904x64, .f32⟩
  | 14 => ⟨S507904x64, .f32⟩
  | 15 => ⟨S507904, .f32⟩
  | 16 => ⟨S500000, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x74, .f32⟩
  | .local _ .vmem, ⟨1, _⟩ => ⟨S5000x74, .f32⟩
  | .local _ .vmem, ⟨2, _⟩ => ⟨S74x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S10000x64, .f32⟩
  | .local _ .vmem, ⟨43, _⟩ => ⟨S10000x64, .f32⟩
  | .local _ .vmem, ⟨44, _⟩ => ⟨S8192x64, .f32⟩
  | .local _ .vmem, ⟨45, _⟩ => ⟨S8192x64, .f32⟩
  | .local _ .vmem, ⟨46, _⟩ => ⟨S8192x64, .f32⟩
  | .local _ .vmem, ⟨47, _⟩ => ⟨S8192x64, .f32⟩
  | .local _ .vmem, ⟨48, _⟩ => ⟨S8192, .f32⟩
  | .local _ .vmem, ⟨49, _⟩ => ⟨S8192, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_cst : Ref sig .tc := ⟨.hbm, 73, rfl⟩
abbrev main_v8 : Ref sig .tc := ⟨.hbm, 74, rfl⟩
abbrev main_cst_0 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_cst_1 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_cst_2 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_cst_3 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v21 : Ref sig .tc := ⟨.hbm, 113, rfl⟩
abbrev main_cst_4 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v27 : Ref sig .tc := ⟨.hbm, 142, rfl⟩
abbrev main_cst_5 : Ref sig .tc := ⟨.hbm, 143, rfl⟩
abbrev main_v28 : Ref sig .tc := ⟨.hbm, 144, rfl⟩
abbrev main_v29 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_call4_c : Ref sig .tc := ⟨.hbm, 153, rfl⟩
abbrev main_call4_v0 : Ref sig .tc := ⟨.hbm, 154, rfl⟩
abbrev main_call4_v1 : Ref sig .tc := ⟨.hbm, 155, rfl⟩
abbrev main_call4_c_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_c_1 : Ref sig .tc := ⟨.hbm, 161, rfl⟩
abbrev main_call4_c_2 : Ref sig .tc := ⟨.hbm, 162, rfl⟩
abbrev main_call4_v6 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_c_3 : Ref sig .tc := ⟨.hbm, 169, rfl⟩
abbrev main_call4_v12 : Ref sig .tc := ⟨.hbm, 170, rfl⟩
abbrev main_call4_v13 : Ref sig .tc := ⟨.hbm, 171, rfl⟩
abbrev main_call4_v14 : Ref sig .tc := ⟨.hbm, 172, rfl⟩
abbrev main_call4_cst : Ref sig .tc := ⟨.hbm, 173, rfl⟩
abbrev main_call4_v15 : Ref sig .tc := ⟨.hbm, 174, rfl⟩
abbrev main_v37 : Ref sig .tc := ⟨.hbm, 175, rfl⟩
abbrev main_cst_6 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_v41 : Ref sig .tc := ⟨.hbm, 180, rfl⟩
abbrev main_v42 : Ref sig .tc := ⟨.hbm, 181, rfl⟩
abbrev main_call5_c : Ref sig .tc := ⟨.hbm, 182, rfl⟩
abbrev main_call5_v0 : Ref sig .tc := ⟨.hbm, 183, rfl⟩
abbrev main_call5_v1 : Ref sig .tc := ⟨.hbm, 184, rfl⟩
abbrev main_call5_c_0 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_c_1 : Ref sig .tc := ⟨.hbm, 190, rfl⟩
abbrev main_call5_c_2 : Ref sig .tc := ⟨.hbm, 191, rfl⟩
abbrev main_call5_v6 : Ref sig .tc := ⟨.hbm, 192, rfl⟩
abbrev main_call5_v7 : Ref sig .tc := ⟨.hbm, 193, rfl⟩
abbrev main_call5_v8 : Ref sig .tc := ⟨.hbm, 194, rfl⟩
abbrev main_call5_v9 : Ref sig .tc := ⟨.hbm, 195, rfl⟩
abbrev main_call5_v10 : Ref sig .tc := ⟨.hbm, 196, rfl⟩
abbrev main_call5_v11 : Ref sig .tc := ⟨.hbm, 197, rfl⟩
abbrev main_call5_c_3 : Ref sig .tc := ⟨.hbm, 198, rfl⟩
abbrev main_call5_v12 : Ref sig .tc := ⟨.hbm, 199, rfl⟩
abbrev main_call5_v13 : Ref sig .tc := ⟨.hbm, 200, rfl⟩
abbrev main_call5_v14 : Ref sig .tc := ⟨.hbm, 201, rfl⟩
abbrev main_call5_cst : Ref sig .tc := ⟨.hbm, 202, rfl⟩
abbrev main_call5_v15 : Ref sig .tc := ⟨.hbm, 203, rfl⟩
abbrev main_v43 : Ref sig .tc := ⟨.hbm, 204, rfl⟩
abbrev main_cst_7 : Ref sig .tc := ⟨.hbm, 205, rfl⟩
abbrev main_v44 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_v49 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_v56 : Ref sig .tc := ⟨.hbm, 218, rfl⟩
abbrev main_c : Ref sig .tc := ⟨.hbm, 219, rfl⟩
abbrev main_call6_v0 : Ref sig .tc := ⟨.hbm, 220, rfl⟩
abbrev main_v57 : Ref sig .tc := ⟨.hbm, 221, rfl⟩
abbrev main_c_8 : Ref sig .tc := ⟨.hbm, 222, rfl⟩
abbrev main_call7_v0 : Ref sig .tc := ⟨.hbm, 223, rfl⟩
abbrev main_v58 : Ref sig .tc := ⟨.hbm, 224, rfl⟩
abbrev main_call8_c : Ref sig .tc := ⟨.hbm, 225, rfl⟩
abbrev main_call8_v0 : Ref sig .tc := ⟨.hbm, 226, rfl⟩
abbrev main_call8_v1 : Ref sig .tc := ⟨.hbm, 227, rfl⟩
abbrev main_call8_c_0 : Ref sig .tc := ⟨.hbm, 228, rfl⟩
abbrev main_call8_v2 : Ref sig .tc := ⟨.hbm, 229, rfl⟩
abbrev main_call8_v3 : Ref sig .tc := ⟨.hbm, 230, rfl⟩
abbrev main_call8_v4 : Ref sig .tc := ⟨.hbm, 231, rfl⟩
abbrev main_call8_v5 : Ref sig .tc := ⟨.hbm, 232, rfl⟩
abbrev main_call8_c_1 : Ref sig .tc := ⟨.hbm, 233, rfl⟩
abbrev main_call8_c_2 : Ref sig .tc := ⟨.hbm, 234, rfl⟩
abbrev main_call8_v6 : Ref sig .tc := ⟨.hbm, 235, rfl⟩
abbrev main_call8_v7 : Ref sig .tc := ⟨.hbm, 236, rfl⟩
abbrev main_call8_v8 : Ref sig .tc := ⟨.hbm, 237, rfl⟩
abbrev main_call8_v9 : Ref sig .tc := ⟨.hbm, 238, rfl⟩
abbrev main_call8_v10 : Ref sig .tc := ⟨.hbm, 239, rfl⟩
abbrev main_call8_v11 : Ref sig .tc := ⟨.hbm, 240, rfl⟩
abbrev main_call8_c_3 : Ref sig .tc := ⟨.hbm, 241, rfl⟩
abbrev main_call8_v12 : Ref sig .tc := ⟨.hbm, 242, rfl⟩
abbrev main_call8_v13 : Ref sig .tc := ⟨.hbm, 243, rfl⟩
abbrev main_call8_v14 : Ref sig .tc := ⟨.hbm, 244, rfl⟩
abbrev main_call8_cst : Ref sig .tc := ⟨.hbm, 245, rfl⟩
abbrev main_call8_v15 : Ref sig .tc := ⟨.hbm, 246, rfl⟩
abbrev main_v59 : Ref sig .tc := ⟨.hbm, 247, rfl⟩
abbrev main_call9_c : Ref sig .tc := ⟨.hbm, 248, rfl⟩
abbrev main_call9_v0 : Ref sig .tc := ⟨.hbm, 249, rfl⟩
abbrev main_call9_v1 : Ref sig .tc := ⟨.hbm, 250, rfl⟩
abbrev main_call9_c_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_call9_c_1 : Ref sig .tc := ⟨.hbm, 256, rfl⟩
abbrev main_call9_c_2 : Ref sig .tc := ⟨.hbm, 257, rfl⟩
abbrev main_call9_v6 : Ref sig .tc := ⟨.hbm, 258, rfl⟩
abbrev main_call9_v7 : Ref sig .tc := ⟨.hbm, 259, rfl⟩
abbrev main_call9_v8 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_call9_c_3 : Ref sig .tc := ⟨.hbm, 264, rfl⟩
abbrev main_call9_v12 : Ref sig .tc := ⟨.hbm, 265, rfl⟩
abbrev main_call9_v13 : Ref sig .tc := ⟨.hbm, 266, rfl⟩
abbrev main_call9_v14 : Ref sig .tc := ⟨.hbm, 267, rfl⟩
abbrev main_call9_cst : Ref sig .tc := ⟨.hbm, 268, rfl⟩
abbrev main_call9_v15 : Ref sig .tc := ⟨.hbm, 269, rfl⟩
abbrev main_v60 : Ref sig .tc := ⟨.hbm, 270, rfl⟩
abbrev main_v61 : Ref sig .tc := ⟨.hbm, 271, rfl⟩
abbrev main_v62 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S74x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![62], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  ![arg0.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x64_0 : S50000.BroadcastsInDim S50000x64 (![0] : Fin 1 → Fin S50000x64.rank)
  bcast_S_S50000x64 : S_.BroadcastsInDim S50000x64 (![] : Fin 0 → Fin S50000x64.rank)
  shapeCasts_S64_S1x64 : S64.ShapeCasts S1x64
  inb_S5000x74_S5000x74_0_0 : ∀ a, (![0, 0] : Fin 2 → Nat) a + S5000x74.size a ≤ S5000x74.size a
  h_S5000x74 : 0 < S5000x74.numel
  bitsLt_bf16_f32 : FTy.bits .bf16 < FTy.bits .f32
  inb_S74x64_S74x64_0_0 : ∀ a, (![0, 0] : Fin 2 → Nat) a + S74x64.size a ≤ S74x64.size a
  h_S74x64 : 0 < S74x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  bcast_S50000x1_S50000x64_0_1 : S50000x1.BroadcastsInDim S50000x64 (![0, 1] : Fin 2 → Fin S50000x64.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  broadcasts_S1x64_S10000x64 : S1x64.Broadcasts S10000x64
  slices_S2x500000_S1x500000_0_0 : S2x500000.Slices ![0, 0] S1x500000
  shapeCasts_S1x500000_S500000 : S1x500000.ShapeCasts S500000
  slices_S2x500000_S1x500000_1_0 : S2x500000.Slices ![1, 0] S1x500000
  pads_S500000_S507904_079040 : S500000.Pads (![0] : Fin 1 → Nat) ![7904] ![0] S507904
  bcast_S_S507904 : S_.BroadcastsInDim S507904 (![] : Fin 0 → Fin S507904.rank)
  bcast_S507904_S507904x1_0 : S507904.BroadcastsInDim S507904x1 (![0] : Fin 1 → Fin S507904x1.rank)
  bcast_S_S507904x1 : S_.BroadcastsInDim S507904x1 (![] : Fin 0 → Fin S507904x1.rank)
  bcast_S1x1_S507904x1_0_1 : S1x1.BroadcastsInDim S507904x1 (![0, 1] : Fin 2 → Fin S507904x1.rank)
  reducesTo_S507904x1_S507904_d1 : S507904x1.ReducesTo [1] S507904
  bcast_S507904_S507904x64_0 : S507904.BroadcastsInDim S507904x64 (![0] : Fin 1 → Fin S507904x64.rank)
  bcast_S_S507904x64 : S_.BroadcastsInDim S507904x64 (![] : Fin 0 → Fin S507904x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  slices_S507904_S500000_0 : S507904.Slices ![0] S500000
  gather_S100000x64_S100000x1_S100000x64_1_0_n_n_0_1_164_wf : GatherDims.WF S100000x64 S100000x1 S100000x64 [1] [0] [] [0] [] 1 ![1, 64]
  gather_S50000x64_S50000x1_S50000x64_1_0_n_n_0_1_164_wf : GatherDims.WF S50000x64 S50000x1 S50000x64 [1] [0] [] [0] [] 1 ![1, 64]
  dot_S5000x74_S74x64_S5000x64_1_0_0_1_n_n_wf : DotDims.WF S5000x74 S74x64 S5000x64 [1] [0] [0] [1] [] []
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  dot_S10000x64_S64x64_S10000x64_1_0_0_1_n_n_wf : DotDims.WF S10000x64 S64x64 S10000x64 [1] [0] [0] [1] [] []
  gather_S100000x64_S507904x1_S507904x64_1_0_n_n_0_1_164_wf : GatherDims.WF S100000x64 S507904x1 S507904x64 [1] [0] [] [0] [] 1 ![1, 64]
  gather_S50000x64_S507904x1_S507904x64_1_0_n_n_0_1_164_wf : GatherDims.WF S50000x64 S507904x1 S507904x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x74.size a ≤ S50000x74.size a
  hwx0_0 : ∀ i : grid0.Coords, EltTy.bits .f32 = 32 ∨ (Rect.block (s := S50000x74) S5000x74.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S74x64.size a ≤ S74x64.size a
  hwx0_1 : ∀ i : grid0.Coords, EltTy.bits .f32 = 32 ∨ (Rect.block (s := S74x64) S74x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S507904x64.size a
  hwx5_0 : ∀ i : grid5.Coords, EltTy.bits .f32 = 32 ∨ (Rect.block (s := S507904x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S507904x64.size a
  hwx5_1 : ∀ i : grid5.Coords, EltTy.bits .f32 = 32 ∨ (Rect.block (s := S507904x64) S8192x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192.size a ≤ S507904.size a
  hwx5_2 : ∀ i : grid5.Coords, EltTy.bits .f32 = 32 ∨ (Rect.block (s := S507904) S8192.size (cc5_transform_2 i) (hinb5_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S5000x74_S74x64_S5000x64_1_0_0_1_n_n : DotDims S5000x74 S74x64 S5000x64 where
  lhsContracting := [1]
  rhsContracting := [0]
  lhsNonContracting := [0]
  rhsNonContracting := [1]
  lhsBatch := []
  rhsBatch := []
  wf := dot_S5000x74_S74x64_S5000x64_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S507904x1_S507904x64_1_0_n_n_0_1_164 : GatherDims S100000x64 S507904x1 S507904x64 where
  offsetDims := [1]
  collapsedSliceDims := [0]
  operandBatchingDims := []
  startIndicesBatchingDims := []
  startIndexMap := [0]
  indexVectorDim := 1
  sliceSizes := ![1, 64]
  wf := gather_S100000x64_S507904x1_S507904x64_1_0_n_n_0_1_164_wf
def gather_S50000x64_S507904x1_S507904x64_1_0_n_n_0_1_164 : GatherDims S50000x64 S507904x1 S507904x64 where
  offsetDims := [1]
  collapsedSliceDims := [0]
  operandBatchingDims := []
  startIndicesBatchingDims := []
  startIndexMap := [0]
  indexVectorDim := 1
  sliceSizes := ![1, 64]
  wf := gather_S50000x64_S507904x1_S507904x64_1_0_n_n_0_1_164_wf

abbrev win0_0 : Pipeline.Window sig grid0 :=
  Pipeline.Window.ofSpec (Memref.whole main_arg2) S5000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S74x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg18) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg20) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v42) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v59) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S8192.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000 : Shape := ⟨1, ![100000]⟩
abbrev S50000 : Shape := ⟨1, ![50000]⟩
abbrev S50000x74 : Shape := ⟨2, ![50000, 74]⟩
abbrev S2x2000000 : Shape := ⟨2, ![2, 2000000]⟩
abbrev S2x500000 : Shape := ⟨2, ![2, 500000]⟩
abbrev S100000x64 : Shape := ⟨2, ![100000, 64]⟩
abbrev S50000x64 : Shape := ⟨2, ![50000, 64]⟩
abbrev S74x64 : Shape := ⟨2, ![74, 64]⟩
abbrev S64 : Shape := ⟨1, ![64]⟩
abbrev S64x64 : Shape := ⟨2, ![64, 64]⟩
abbrev S1x2000000 : Shape := ⟨2, ![1, 2000000]⟩
abbrev S2000000 : Shape := ⟨1, ![2000000]⟩
abbrev S_ : Shape := ⟨0, ![]⟩
abbrev S100000x1 : Shape := ⟨2, ![100000, 1]⟩
abbrev S1x64 : Shape := ⟨2, ![1, 64]⟩
abbrev S50000x1 : Shape := ⟨2, ![50000, 1]⟩
abbrev S2000000x1 : Shape := ⟨2, ![2000000, 1]⟩
abbrev S2000000x64 : Shape := ⟨2, ![2000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 203
  | .vmem => 0
  | .smem => 0
  | _ => 0

abbrev hbmTy0_0 (i : Nat) : BufTy := match i % 128 with
  | 0 => ⟨S100000, .i32⟩
  | 1 => ⟨S50000, .i32⟩
  | 2 => ⟨S50000x74, .f32⟩
  | 3 => ⟨S2x2000000, .i32⟩
  | 4 => ⟨S2x500000, .i32⟩
  | 5 => ⟨S100000x64, .f32⟩
  | 6 => ⟨S50000x64, .f32⟩
  | 7 => ⟨S74x64, .f32⟩
  | 8 => ⟨S64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S1x2000000, .i32⟩
  | 22 => ⟨S2000000, .i32⟩
  | 23 => ⟨S1x2000000, .i32⟩
  | 24 => ⟨S2000000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x64, .f32⟩
  | 34 => ⟨S50000x64, .f32⟩
  | 35 => ⟨S1x64, .f32⟩
  | 36 => ⟨S50000x64, .f32⟩
  | 37 => ⟨S50000x64, .f32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000x64, .f32⟩
  | 47 => ⟨S50000x64, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x64, .f32⟩
  | 57 => ⟨S_, .f32⟩
  | 58 => ⟨S100000x64, .f32⟩
  | 59 => ⟨S2000000x1, .i32⟩
  | 60 => ⟨S100000x64, .f32⟩
  | 61 => ⟨S_, .f32⟩
  | 62 => ⟨S2000000, .f32⟩
  | 63 => ⟨S_, .f32⟩
  | 64 => ⟨S100000, .f32⟩
  | 65 => ⟨S2000000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .f32⟩
  | 91 => ⟨S_, .f32⟩
  | 92 => ⟨S50000x64, .f32⟩
  | 93 => ⟨S2000000x1, .i32⟩
  | 94 => ⟨S50000x64, .f32⟩
  | 95 => ⟨S_, .f32⟩
  | 96 => ⟨S2000000, .f32⟩
  | 97 => ⟨S_, .f32⟩
  | 98 => ⟨S50000, .f32⟩
  | 99 => ⟨S2000000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x64, .f32⟩
  | 106 => ⟨S50000x64, .f32⟩
  | 107 => ⟨S50000x64, .f32⟩
  | 108 => ⟨S1x64, .f32⟩
  | 109 => ⟨S50000x64, .f32⟩
  | 110 => ⟨S50000x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000x64, .f32⟩
  | 125 => ⟨S_, .f32⟩
  | 126 => ⟨S100000x64, .f32⟩
  | 127 => ⟨S2000000x1, .i32⟩
  | _ => ⟨S100000, .i32⟩

abbrev hbmTy0_1 (i : Nat) : BufTy := match i % 128 with
  | 0 => ⟨S100000x64, .f32⟩
  | 1 => ⟨S_, .f32⟩
  | 2 => ⟨S2000000, .f32⟩
  | 3 => ⟨S_, .f32⟩
  | 4 => ⟨S100000, .f32⟩
  | 5 => ⟨S2000000x1, .i32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S100000x64, .f32⟩
  | 18 => ⟨S100000x64, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S_, .f32⟩
  | 29 => ⟨S50000x64, .f32⟩
  | 30 => ⟨S2000000x1, .i32⟩
  | 31 => ⟨S50000x64, .f32⟩
  | 32 => ⟨S_, .f32⟩
  | 33 => ⟨S2000000, .f32⟩
  | 34 => ⟨S_, .f32⟩
  | 35 => ⟨S50000, .f32⟩
  | 36 => ⟨S2000000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x64, .f32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x64, .f32⟩
  | 72 => ⟨S500000x64, .f32⟩
  | 73 => ⟨S_, .f32⟩
  | 74 => ⟨S500000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call0_cst : Ref sig .tc := ⟨.hbm, 79, rfl⟩
abbrev main_call0_v0 : Ref sig .tc := ⟨.hbm, 80, rfl⟩
abbrev main_v48 : Ref sig .tc := ⟨.hbm, 81, rfl⟩
abbrev main_c_8 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_13 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call1_cst : Ref sig .tc := ⟨.hbm, 113, rfl⟩
abbrev main_call1_v0 : Ref sig .tc := ⟨.hbm, 114, rfl⟩
abbrev main_v74 : Ref sig .tc := ⟨.hbm, 115, rfl⟩
abbrev main_c_14 : Ref sig .tc := ⟨.hbm, 116, rfl⟩
abbrev main_v75 : Ref sig .tc := ⟨.hbm, 117, rfl⟩
abbrev main_v76 : Ref sig .tc := ⟨.hbm, 118, rfl⟩
abbrev main_c_15 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_17 : Ref sig .tc := ⟨.hbm, 129, rfl⟩
abbrev main_v85 : Ref sig .tc := ⟨.hbm, 130, rfl⟩
abbrev main_cst_18 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_19 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_20 : Ref sig .tc := ⟨.hbm, 147, rfl⟩
abbrev main_v100 : Ref sig .tc := ⟨.hbm, 148, rfl⟩
abbrev main_v101 : Ref sig .tc := ⟨.hbm, 149, rfl⟩
abbrev main_c_21 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_22 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_23 : Ref sig .tc := ⟨.hbm, 160, rfl⟩
abbrev main_v110 : Ref sig .tc := ⟨.hbm, 161, rfl⟩
abbrev main_cst_24 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_25 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_c_26 : Ref sig .tc := ⟨.hbm, 180, rfl⟩
abbrev main_v127 : Ref sig .tc := ⟨.hbm, 181, rfl⟩
abbrev main_v128 : Ref sig .tc := ⟨.hbm, 182, rfl⟩
abbrev main_c_27 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_28 : Ref sig .tc := ⟨.hbm, 191, rfl⟩
abbrev main_v136 : Ref sig .tc := ⟨.hbm, 192, rfl⟩
abbrev main_v137 : Ref sig .tc := ⟨.hbm, 193, rfl⟩
abbrev main_c_29 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_30 : Ref sig .tc := ⟨.hbm, 201, rfl⟩
abbrev main_v144 : Ref sig .tc := ⟨.hbm, 202, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  gather_S100000x64_S100000x1_S100000x64_1_0_n_n_0_1_164_wf : GatherDims.WF S100000x64 S100000x1 S100000x64 [1] [0] [] [0] [] 1 ![1, 64]
  dot_S50000x74_S74x64_S50000x64_1_0_0_1_n_n_wf : DotDims.WF S50000x74 S74x64 S50000x64 [1] [0] [0] [1] [] []
  gather_S50000x64_S50000x1_S50000x64_1_0_n_n_0_1_164_wf : GatherDims.WF S50000x64 S50000x1 S50000x64 [1] [0] [] [0] [] 1 ![1, 64]
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S50000x74_S74x64_S50000x64_1_0_0_1_n_n : DotDims S50000x74 S74x64 S50000x64 where
  lhsContracting := [1]
  rhsContracting := [0]
  lhsNonContracting := [0]
  rhsNonContracting := [1]
  lhsBatch := []
  rhsBatch := []
  wf := dot_S50000x74_S74x64_S50000x64_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.PreDecode.lean ====
import proofs.«411752_j33432025432297_2_alg».proof.Defs
import Idealize.ShloMosaic.Lib.ReduceAll

namespace Cert.PreDecode

open Idealize.ShloMosaic
open Cert.Pre_finite_inputs Cert.Pre_finite_inputs.Facts

variable [Cert.Pre_finite_inputs.Facts]

/-- Every entry of `x` is in `[0, N)` as a signed word. -/
def InRange {s : Shape} (N : Nat) (x : IVec s 32) : Prop :=
  ∀ i, IntOp.cmpi .sge (x i) 0#32 = 1#1 ∧ IntOp.cmpi .slt (x i) (BitVec.ofNat 32 N) = 1#1

/-- The two rows of the edge array and of the label-edge array, each as a vector. -/
abbrev row0E (a3 : IVec S2x2000000 32) : IVec S2000000 32 :=
  shapeCast S2000000 ((extractStridedSlice S1x2000000 ![0, 0] · slices_S2x2000000_S1x2000000_0_0) a3)
    shapeCasts_S1x2000000_S2000000

abbrev row1E (a3 : IVec S2x2000000 32) : IVec S2000000 32 :=
  shapeCast S2000000 ((extractStridedSlice S1x2000000 ![1, 0] · slices_S2x2000000_S1x2000000_1_0) a3)
    shapeCasts_S1x2000000_S2000000

abbrev row0L (a4 : IVec S2x500000 32) : IVec S500000 32 :=
  shapeCast S500000 ((extractStridedSlice S1x500000 ![0, 0] · slices_S2x500000_S1x500000_0_0) a4)
    shapeCasts_S1x500000_S500000

abbrev row1L (a4 : IVec S2x500000 32) : IVec S500000 32 :=
  shapeCast S500000 ((extractStridedSlice S1x500000 ![1, 0] · slices_S2x500000_S1x500000_1_0) a4)
    shapeCasts_S1x500000_S500000

instance : Subsingleton S_.Idx := ⟨fun _ _ => funext fun d => d.elim0⟩

/-- One step of the running `and`: the value so far is 1, and the range test the new conjunct reduces holds everywhere. -/
theorem peel {s : Shape} {axes : List (Fin s.rank)} (p : IVec S_ 1) (x lo hi : IVec s 32) (c : IVec S_ 1)
    (red : s.ReducesTo axes S_) (j : S_.Idx)
    (h : andi p (Host.reduce IntOp.andi (andi (cmpi .sge x lo) (cmpi .slt x hi)) c red h_S_) j = 1#1) :
    p j = 1#1 ∧ ∀ i, IntOp.cmpi .sge (x i) (lo i) = 1#1 ∧ IntOp.cmpi .slt (x i) (hi i) = 1#1 :=
  (IntOp.andi_eq_one.1 h).imp_right fun e i => IntOp.andi_eq_one.1 (Host.reduce_andi_all _ c red h_S_ j e i)

/-- The precondition's last six conjuncts are the six range tests: peel them off the running `and` one by one. -/
theorem ranges_of_fn {F : FTy → Type} [FloatOps F] (a0 : IVec S100000 32) (a1 : IVec S50000 32)
    (a2 : FVec F S50000x74 .f32) (a3 : IVec S2x2000000 32) (a4 : IVec S2x500000 32) (a5 : FVec F S100000x64 .f32)
    (a6 : FVec F S50000x64 .f32) (a7 : FVec F S74x64 .f32) (a8 : FVec F S64 .f32) (a9 : FVec F S64x64 .f32)
    (a10 : FVec F S64 .f32) (a11 : FVec F S64x64 .f32) (a12 : FVec F S64x64 .f32) (a13 : FVec F S64 .f32)
    (a14 : FVec F S64x64 .f32) (a15 : FVec F S64x64 .f32) (a16 : FVec F S64 .f32) (a17 : FVec F S64x64 .f32)
    (a18 : FVec F S64x64 .f32) (a19 : FVec F S64 .f32) (a20 : FVec F S64x64 .f32)
    (h : Cert.Pre_finite_inputs.fn (F := F) a0 a1 a2 a3 a4 a5 a6 a7 a8 a9 a10 a11 a12 a13 a14 a15 a16 a17 a18 a19 a20
      = (fun _ => 1#1)) :
    InRange 100000 a0 ∧ InRange 50000 a1 ∧ InRange 100000 (row0E a3) ∧ InRange 50000 (row1E a3)
      ∧ InRange 100000 (row0L a4) ∧ InRange 50000 (row1L a4) := by
  obtain ⟨h, h6⟩ := peel _ _ _ _ _ _ _ (congrFun h fun d => d.elim0)
  obtain ⟨h, h5⟩ := peel _ _ _ _ _ _ _ h
  obtain ⟨h, h4⟩ := peel _ _ _ _ _ _ _ h
  obtain ⟨h, h3⟩ := peel _ _ _ _ _ _ _ h
  obtain ⟨h, h2⟩ := peel _ _ _ _ _ _ _ h
  exact ⟨(peel _ _ _ _ _ _ _ h).2, h2, h3, h4, h5, h6⟩

end Cert.PreDecode
-- ==== Proof.HostStages.lean ====
import proofs.«411752_j33432025432297_2_alg».proof.Proof.Gen.KernelIdeal.Launch
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (U : Valuation τ sig (Elt F))

/-- After a list of operations, each writing its own result, a result is the composition of the operations that feed it. -/
theorem s0_v1 : StableHlo.after (hostOps0 (F := F)) U (Proc.devRef .tc main_v1) =
    shapeCast S2000000 (extractStridedSlice S1x2000000 ![0, 0] (U (Proc.devRef .tc main_arg3)) slices_S2x2000000_S1x2000000_0_0) shapeCasts_S1x2000000_S2000000 := by
  after_results_simp <;> rfl

theorem s0_v3 : StableHlo.after (hostOps0 (F := F)) U (Proc.devRef .tc main_v3) =
    shapeCast S2000000 (extractStridedSlice S1x2000000 ![1, 0] (U (Proc.devRef .tc main_arg3)) slices_S2x2000000_S1x2000000_1_0) shapeCasts_S1x2000000_S2000000 := by
  after_results_simp <;> rfl

theorem s03_v6 : StableHlo.after (hostOps0_3 (F := F)) U (Proc.devRef .tc main_v6) =
    shapeCast S1x64 (U (Proc.devRef .tc main_arg8)) shapeCasts_S64_S1x64 := by
  after_results_simp <;> rfl

theorem s14_v33 : StableHlo.after (hostOps1_4 (F := F)) U (Proc.devRef .tc main_v33) =
    shapeCast S1x64 (U (Proc.devRef .tc main_arg13)) shapeCasts_S64_S1x64 := by
  after_results_simp <;> rfl

theorem s2_v35 : StableHlo.after (hostOps2 (F := F)) U (Proc.devRef .tc main_v35) =
    shapeCast S1x64 (U (Proc.devRef .tc main_arg10)) shapeCasts_S64_S1x64 := by
  after_results_simp <;> rfl

theorem s33_v49 : StableHlo.after (hostOps3_3 (F := F)) U (Proc.devRef .tc main_v49) =
    shapeCast S1x64 (U (Proc.devRef .tc main_arg19)) shapeCasts_S64_S1x64 := by
  after_results_simp <;> rfl

theorem s4_v51 : StableHlo.after (hostOps4 (F := F)) U (Proc.devRef .tc main_v51) =
    shapeCast S1x64 (U (Proc.devRef .tc main_arg16)) shapeCasts_S64_S1x64 := by
  after_results_simp <;> rfl

theorem s1_v14 : StableHlo.after (hostOps1 (F := F)) U (Proc.devRef .tc main_v14) =
    broadcastInDim S50000x1 ![0] bcast_S50000_S50000x1_0
      (maximumf
        (Host.scatterAdd scatter_S50000_S2000000x1_S2000000_n_0_0_1
          (broadcastInDim S50000 ![] bcast_S_S50000 (constant S_ .f32 0x00000000#32))
          (broadcastInDim S2000000x1 ![0] bcast_S2000000_S2000000x1_0 (U (Proc.devRef .tc main_v3)))
          (broadcastInDim S2000000 ![] bcast_S_S2000000 (constant S_ .f32 0x3F800000#32)))
        (broadcastInDim S50000 ![] bcast_S_S50000 (constant S_ .f32 0x3F800000#32))) := by
  after_results_simp <;> rfl

theorem s1_v20 : StableHlo.after (hostOps1 (F := F)) U (Proc.devRef .tc main_v20) =
    broadcastInDim S100000x1 ![0] bcast_S100000_S100000x1_0
      (maximumf
        (Host.scatterAdd scatter_S100000_S2000000x1_S2000000_n_0_0_1
          (broadcastInDim S100000 ![] bcast_S_S100000 (constant S_ .f32 0x00000000#32))
          (broadcastInDim S2000000x1 ![0] bcast_S2000000_S2000000x1_0 (U (Proc.devRef .tc main_v1)))
          (broadcastInDim S2000000 ![] bcast_S_S2000000 (constant S_ .f32 0x3F800000#32)))
        (broadcastInDim S100000 ![] bcast_S_S100000 (constant S_ .f32 0x3F800000#32))) := by
  after_results_simp <;> rfl

theorem s12_v26 : StableHlo.after (hostOps1_2 (F := F)) U (Proc.devRef .tc main_v26) =
    Host.divf
      (Host.scatterAdd scatter_S50000x64_S2000000x1_S2000000x64_1_0_0_1
        (broadcastInDim S50000x64 ![] bcast_S_S50000x64 (constant S_ .f32 0x00000000#32))
        (broadcastInDim S2000000x1 ![0] bcast_S2000000_S2000000x1_0 (U (Proc.devRef .tc main_v3)))
        (U (Proc.devRef .tc main_v21)))
      (broadcastInDim S50000x64 ![0, 1] bcast_S50000x1_S50000x64_0_1 (U (Proc.devRef .tc main_v14))) := by
  after_results_simp <;> rfl

theorem s14_v32 : StableHlo.after (hostOps1_4 (F := F)) U (Proc.devRef .tc main_v32) =
    Host.divf
      (Host.scatterAdd scatter_S100000x64_S2000000x1_S2000000x64_1_0_0_1
        (broadcastInDim S100000x64 ![] bcast_S_S100000x64 (constant S_ .f32 0x00000000#32))
        (broadcastInDim S2000000x1 ![0] bcast_S2000000_S2000000x1_0 (U (Proc.devRef .tc main_v1)))
        (U (Proc.devRef .tc main_v27)))
      (broadcastInDim S100000x64 ![0, 1] bcast_S100000x1_S100000x64_0_1 (U (Proc.devRef .tc main_v20))) := by
  after_results_simp <;> rfl

theorem s31_v42 : StableHlo.after (hostOps3_1 (F := F)) U (Proc.devRef .tc main_v42) =
    Host.divf
      (Host.scatterAdd scatter_S50000x64_S2000000x1_S2000000x64_1_0_0_1
        (broadcastInDim S50000x64 ![] bcast_S_S50000x64 (constant S_ .f32 0x00000000#32))
        (broadcastInDim S2000000x1 ![0] bcast_S2000000_S2000000x1_0 (U (Proc.devRef .tc main_v3)))
        (U (Proc.devRef .tc main_v37)))
      (broadcastInDim S50000x64 ![0, 1] bcast_S50000x1_S50000x64_0_1 (U (Proc.devRef .tc main_v14))) := by
  after_results_simp <;> rfl

theorem s33_v48 : StableHlo.after (hostOps3_3 (F := F)) U (Proc.devRef .tc main_v48) =
    Host.divf
      (Host.scatterAdd scatter_S100000x64_S2000000x1_S2000000x64_1_0_0_1
        (broadcastInDim S100000x64 ![] bcast_S_S100000x64 (constant S_ .f32 0x00000000#32))
        (broadcastInDim S2000000x1 ![0] bcast_S2000000_S2000000x1_0 (U (Proc.devRef .tc main_v1)))
        (U (Proc.devRef .tc main_v43)))
      (broadcastInDim S100000x64 ![0, 1] bcast_S100000x1_S100000x64_0_1 (U (Proc.devRef .tc main_v20))) := by
  after_results_simp <;> rfl

theorem s5_v54 : StableHlo.after (hostOps5 (F := F)) U (Proc.devRef .tc main_v54) =
    shapeCast S500000 (extractStridedSlice S1x500000 ![0, 0] (U (Proc.devRef .tc main_arg4)) slices_S2x500000_S1x500000_0_0) shapeCasts_S1x500000_S500000 := by
  after_results_simp <;> rfl

theorem s5_v56 : StableHlo.after (hostOps5 (F := F)) U (Proc.devRef .tc main_v56) =
    shapeCast S500000 (extractStridedSlice S1x500000 ![1, 0] (U (Proc.devRef .tc main_arg4)) slices_S2x500000_S1x500000_1_0) shapeCasts_S1x500000_S500000 := by
  after_results_simp <;> rfl

theorem s5_c : StableHlo.after (hostOps5 (F := F)) U (Proc.devRef .tc main_c) = constantI S_ 32 0#32 := by
  after_results_simp <;> rfl

theorem s51_v57 : StableHlo.after (hostOps5_1 (F := F)) U (Proc.devRef .tc main_v57) =
    pad S507904 ![0] ![7904] ![0] (U (Proc.devRef .tc main_v54)) (U (Proc.devRef .tc main_c)) pads_S500000_S507904_079040 h_S_ := by
  after_results_simp <;> rfl

theorem s52_c8 : StableHlo.after (hostOps5_2 (F := F)) U (Proc.devRef .tc main_c_8) = constantI S_ 32 0#32 := by
  after_results_simp <;> rfl

theorem s53_v58 : StableHlo.after (hostOps5_3 (F := F)) U (Proc.devRef .tc main_v58) =
    pad S507904 ![0] ![7904] ![0] (U (Proc.devRef .tc main_v56)) (U (Proc.devRef .tc main_c_8)) pads_S500000_S507904_079040 h_S_ := by
  after_results_simp <;> rfl

theorem s6_v62 : StableHlo.after (hostOps6 (F := F)) U (Proc.devRef .tc main_v62) =
    extractStridedSlice S500000 ![0] (U (Proc.devRef .tc main_v61)) slices_S507904_S500000_0 := by
  after_results_simp <;> rfl

end Cert.KernelIdeal.HostStages

end
-- ==== Proof.TakeLaw.lean ====
import Idealize.ShloMosaic.PureOps.Reduce
import Idealize.ShloMosaic.Lib.ValueIdx
import Idealize.ShloMosaic.Lib.Affine
import Idealize.ShloMosaic.Lib.StableHlo.Predicate

namespace Cert.TakeLaw

open Idealize.ShloMosaic

/-- An `and`-reduction, along any axes, of an array of ones from an initial value of ones is an array of ones. -/
theorem reduce_andi_ones {s t u : Shape} {axes : List (Fin s.rank)} (x : IVec s 1) (init : IVec u 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact List.foldlRecOn (motive := (· = 1#1)) _ _ rfl fun _ hb _ _ => by rw [hb, hx]; rfl

/-- A selection whose mask is the broadcast of an `and`-reduction of an array of ones is its first branch. -/
theorem select_of_ones {α : Type} {s sm sr u : Shape} {axes : List (Fin s.rank)} {red : s.ReducesTo axes sm}
    {hu : 0 < u.numel} {dM : Fin sm.rank → Fin sr.rank} {bM : sm.BroadcastsInDim sr dM} {x : IVec s 1}
    (hx : ∀ i, x i = 1#1) {g fill : sr.Idx → α} :
    select (broadcastInDim sr dM bM (Host.reduce IntOp.andi x (constantI u 1 1#1) red hu)) g fill = g :=
  funext fun _ =>
    (congrArg (Scalar.select · _ _) (reduce_andi_ones x _ red hu hx (fun _ => rfl) _)).trans (ValueIdx.select_one _ _)

/-- A signed word in `[0, N)` is left alone by "add `N` if negative" and then lies in `[0, N - 1]`. -/
theorem word_passes {N M : Nat} (hN : M + 1 = N ∧ N < 2 ^ 31) (w : BitVec 32)
    (h : IntOp.cmpi .sge w 0#32 = 1#1 ∧ IntOp.cmpi .slt w (BitVec.ofNat 32 N) = 1#1) :
    IntOp.andi
        (IntOp.cmpi .sge (Scalar.select (IntOp.cmpi .slt w 0#32) (IntOp.addi w (BitVec.ofNat 32 N)) w) 0#32)
        (IntOp.cmpi .sle (Scalar.select (IntOp.cmpi .slt w 0#32) (IntOp.addi w (BitVec.ofNat 32 N)) w)
          (BitVec.ofNat 32 M)) = 1#1 := by
  have e0 : (0#32 : BitVec 32).toInt = 0 := rfl
  obtain ⟨h0, h1⟩ := h
  rw [IntOp.cmpi_sge, e0] at h0
  rw [IntOp.cmpi_slt, StableHlo.Predicate.toInt_ofNat_small N hN.2] at h1
  rw [show Scalar.select (IntOp.cmpi .slt w 0#32) (IntOp.addi w (BitVec.ofNat 32 N)) w = w from
      if_neg fun h => absurd (IntOp.cmpi_slt.1 h) (by rw [e0]; omega),
    IntOp.andi_eq_one, IntOp.cmpi_sge, IntOp.cmpi_sle, e0, StableHlo.Predicate.toInt_ofNat_small M (by omega)]
  omega

end Cert.TakeLaw
-- ==== Proof.HostTakes.lean ====
import proofs.«411752_j33432025432297_2_alg».proof.Proof.Gen.KernelIdeal.Launch
import proofs.«411752_j33432025432297_2_alg».proof.Proof.PreDecode
import proofs.«411752_j33432025432297_2_alg».proof.Proof.TakeLaw
import Idealize.ShloMosaic.Lib.StableHlo.Run

set_option maxRecDepth 16384

noncomputable section

namespace Cert.KernelIdeal.HostTakes

open Cert.KernelIdeal Cert.KernelIdeal.Gen Idealize.ShloMosaic Idealize.ShloMosaic.TcCoe Idealize.SL.Sem
  Idealize.ShloMosaic.StableHlo Cert.TakeLaw

variable {F : FTy → Type} [FloatOps F]

/-- Contents moved to a buffer's own type and back are unchanged: two transports along one equation and its reverse. -/
theorem ofBuf_toBuf {sig : RefSig} {T : BufTy} {Val : EltTy → Type} (x : TRef sig T) (v : T.Contents Val) :
    x.ofBuf (x.toBuf v) = v :=
  (cast_cast _ _ v).trans (cast_eq _ v)

/-- Under an index vector in range every row of a filled take passes its range test: the result is the gathered rows. -/
theorem take0_1 (U : Valuation τ sig (Elt F))
    (h : Cert.PreDecode.InRange 100000 (U (Proc.devRef .tc main_arg0) : IVec S100000 32)) :
    StableHlo.after (hostOps0_1 (F := F)) U (Proc.devRef .tc main_v4) =
      Host.gather gather_S100000x64_S100000x1_S100000x64_1_0_n_n_0_1_164
        (U (Proc.devRef .tc main_arg5) : FVec F S100000x64 .f32)
        (broadcastInDim S100000x1 ![0] bcast_S100000_S100000x1_0
          (select
            (cmpi .slt (U (Proc.devRef .tc main_arg0) : IVec S100000 32)
              (broadcastInDim S100000 ![] bcast_S_S100000 (constantI S_ 32 0#32)))
            (addi (U (Proc.devRef .tc main_arg0) : IVec S100000 32)
              (broadcastInDim S100000 ![] bcast_S_S100000 (constantI S_ 32 100000#32)))
            (U (Proc.devRef .tc main_arg0) : IVec S100000 32))) := by
  after_results_simp
  simp only [ofBuf_toBuf]
  exact (congrArg _ (select_of_ones fun _ => word_passes (by omega) _ (h _))).trans rfl

theorem take0_2 (U : Valuation τ sig (Elt F))
    (h : Cert.PreDecode.InRange 50000 (U (Proc.devRef .tc main_arg1) : IVec S50000 32)) :
    StableHlo.after (hostOps0_2 (F := F)) U (Proc.devRef .tc main_v5) =
      Host.gather gather_S50000x64_S50000x1_S50000x64_1_0_n_n_0_1_164
        (U (Proc.devRef .tc main_arg6) : FVec F S50000x64 .f32)
        (broadcastInDim S50000x1 ![0] bcast_S50000_S50000x1_0
          (select
            (cmpi .slt (U (Proc.devRef .tc main_arg1) : IVec S50000 32)
              (broadcastInDim S50000 ![] bcast_S_S50000 (constantI S_ 32 0#32)))
            (addi (U (Proc.devRef .tc main_arg1) : IVec S50000 32)
              (broadcastInDim S50000 ![] bcast_S_S50000 (constantI S_ 32 50000#32)))
            (U (Proc.devRef .tc main_arg1) : IVec S50000 32))) := by
  after_results_simp
  simp only [ofBuf_toBuf]
  exact (congrArg _ (select_of_ones fun _ => word_passes (by omega) _ (h _))).trans rfl

theorem take1_1 (U : Valuation τ sig (Elt F))
    (h : Cert.PreDecode.InRange 100000 (U (Proc.devRef .tc main_v1) : IVec S2000000 32)) :
    StableHlo.after (hostOps1_1 (F := F)) U (Proc.devRef .tc main_v21) =
      Host.gather gather_S100000x64_S2000000x1_S2000000x64_1_0_n_n_0_1_164
        (U (Proc.devRef .tc main_v4) : FVec F S100000x64 .f32)
        (broadcastInDim S2000000x1 ![0] bcast_S2000000_S2000000x1_0
          (select
            (cmpi .slt (U (Proc.devRef .tc main_v1) : IVec S2000000 32)
              (broadcastInDim S2000000 ![] bcast_S_S2000000 (constantI S_ 32 0#32)))
            (addi (U (Proc.devRef .tc main_v1) : IVec S2000000 32)
              (broadcastInDim S2000000 ![] bcast_S_S2000000 (constantI S_ 32 100000#32)))
            (U (Proc.devRef .tc main_v1) : IVec S2000000 32))) := by
  after_results_simp
  simp only [ofBuf_toBuf]
  exact (congrArg _ (select_of_ones fun _ => word_passes (by omega) _ (h _))).trans rfl

theorem take1_3 (U : Valuation τ sig (Elt F))
    (h : Cert.PreDecode.InRange 50000 (U (Proc.devRef .tc main_v3) : IVec S2000000 32)) :
    StableHlo.after (hostOps1_3 (F := F)) U (Proc.devRef .tc main_v27) =
      Host.gather gather_S50000x64_S2000000x1_S2000000x64_1_0_n_n_0_1_164
        (U (Proc.devRef .tc main_v7) : FVec F S50000x64 .f32)
        (broadcastInDim S2000000x1 ![0] bcast_S2000000_S2000000x1_0
          (select
            (cmpi .slt (U (Proc.devRef .tc main_v3) : IVec S2000000 32)
              (broadcastInDim S2000000 ![] bcast_S_S2000000 (constantI S_ 32 0#32)))
            (addi (U (Proc.devRef .tc main_v3) : IVec S2000000 32)
              (broadcastInDim S2000000 ![] bcast_S_S2000000 (constantI S_ 32 50000#32)))
            (U (Proc.devRef .tc main_v3) : IVec S2000000 32))) := by
  after_results_simp
  simp only [ofBuf_toBuf]
  exact (congrArg _ (select_of_ones fun _ => word_passes (by omega) _ (h _))).trans rfl

theorem take3 (U : Valuation τ sig (Elt F))
    (h : Cert.PreDecode.InRange 100000 (U (Proc.devRef .tc main_v1) : IVec S2000000 32)) :
    StableHlo.after (hostOps3 (F := F)) U (Proc.devRef .tc main_v37) =
      Host.gather gather_S100000x64_S2000000x1_S2000000x64_1_0_n_n_0_1_164
        (U (Proc.devRef .tc main_v34) : FVec F S100000x64 .f32)
        (broadcastInDim S2000000x1 ![0] bcast_S2000000_S2000000x1_0
          (select
            (cmpi .slt (U (Proc.devRef .tc main_v1) : IVec S2000000 32)
              (broadcastInDim S2000000 ![] bcast_S_S2000000 (constantI S_ 32 0#32)))
            (addi (U (Proc.devRef .tc main_v1) : IVec S2000000 32)
              (broadcastInDim S2000000 ![] bcast_S_S2000000 (constantI S_ 32 100000#32)))
            (U (Proc.devRef .tc main_v1) : IVec S2000000 32))) := by
  after_results_simp
  simp only [ofBuf_toBuf]
  exact (congrArg _ (select_of_ones fun _ => word_passes (by omega) _ (h _))).trans rfl

theorem take3_2 (U : Valuation τ sig (Elt F))
    (h : Cert.PreDecode.InRange 50000 (U (Proc.devRef .tc main_v3) : IVec S2000000 32)) :
    StableHlo.after (hostOps3_2 (F := F)) U (Proc.devRef .tc main_v43) =
      Host.gather gather_S50000x64_S2000000x1_S2000000x64_1_0_n_n_0_1_164
        (U (Proc.devRef .tc main_v36) : FVec F S50000x64 .f32)
        (broadcastInDim S2000000x1 ![0] bcast_S2000000_S2000000x1_0
          (select
            (cmpi .slt (U (Proc.devRef .tc main_v3) : IVec S2000000 32)
              (broadcastInDim S2000000 ![] bcast_S_S2000000 (constantI S_ 32 0#32)))
            (addi (U (Proc.devRef .tc main_v3) : IVec S2000000 32)
              (broadcastInDim S2000000 ![] bcast_S_S2000000 (constantI S_ 32 50000#32)))
            (U (Proc.devRef .tc main_v3) : IVec S2000000 32))) := by
  after_results_simp
  simp only [ofBuf_toBuf]
  exact (congrArg _ (select_of_ones fun _ => word_passes (by omega) _ (h _))).trans rfl

theorem take5_4 (U : Valuation τ sig (Elt F))
    (h : Cert.PreDecode.InRange 100000 (U (Proc.devRef .tc main_v57) : IVec S507904 32)) :
    StableHlo.after (hostOps5_4 (F := F)) U (Proc.devRef .tc main_v59) =
      Host.gather gather_S100000x64_S507904x1_S507904x64_1_0_n_n_0_1_164
        (U (Proc.devRef .tc main_v50) : FVec F S100000x64 .f32)
        (broadcastInDim S507904x1 ![0] bcast_S507904_S507904x1_0
          (select
            (cmpi .slt (U (Proc.devRef .tc main_v57) : IVec S507904 32)
              (broadcastInDim S507904 ![] bcast_S_S507904 (constantI S_ 32 0#32)))
            (addi (U (Proc.devRef .tc main_v57) : IVec S507904 32)
              (broadcastInDim S507904 ![] bcast_S_S507904 (constantI S_ 32 100000#32)))
            (U (Proc.devRef .tc main_v57) : IVec S507904 32))) := by
  after_results_simp
  simp only [ofBuf_toBuf]
  exact (congrArg _ (select_of_ones fun _ => word_passes (by omega) _ (h _))).trans rfl

theorem take5_5 (U : Valuation τ sig (Elt F))
    (h : Cert.PreDecode.InRange 50000 (U (Proc.devRef .tc main_v58) : IVec S507904 32)) :
    StableHlo.after (hostOps5_5 (F := F)) U (Proc.devRef .tc main_v60) =
      Host.gather gather_S50000x64_S507904x1_S507904x64_1_0_n_n_0_1_164
        (U (Proc.devRef .tc main_v52) : FVec F S50000x64 .f32)
        (broadcastInDim S507904x1 ![0] bcast_S507904_S507904x1_0
          (select
            (cmpi .slt (U (Proc.devRef .tc main_v58) : IVec S507904 32)
              (broadcastInDim S507904 ![] bcast_S_S507904 (constantI S_ 32 0#32)))
            (addi (U (Proc.devRef .tc main_v58) : IVec S507904 32)
              (broadcastInDim S507904 ![] bcast_S_S507904 (constantI S_ 32 50000#32)))
            (U (Proc.devRef .tc main_v58) : IVec S507904 32))) := by
  after_results_simp
  simp only [ofBuf_toBuf]
  exact (congrArg _ (select_of_ones fun _ => word_passes (by omega) _ (h _))).trans rfl

end Cert.KernelIdeal.HostTakes

end
-- ==== Proof.Carry.lean ====
import proofs.«411752_j33432025432297_2_alg».proof.Proof.Gen.KernelIdeal.Frame

noncomputable section

namespace Cert.KernelIdeal.Carry

open Cert.KernelIdeal Cert.KernelIdeal.Gen Idealize.ShloMosaic Idealize.ShloMosaic.TcCoe Idealize.SL.Sem

variable {F : FTy → Type} [FloatOps F]

theorem ne_of_idx_lt {b r : Ref sig .tc} (h : b.idx.val < r.idx.val) : b ≠ r := by
  rintro rfl
  exact lt_irrefl _ h

/-- Buffers are numbered in program order and each is written once: entry `k` is the first buffer that segment `k` of
    @main (from boundary `k` to boundary `k + 1`) writes. -/
def lo : List ℕ :=
  [21, 25, 48, 71, 72, 73, 91, 114, 120, 143, 150, 151, 152, 153, 176, 182, 205, 212, 213, 214, 215, 220, 222, 223, 225,
    248, 271, 272]

/-- Segment `k` leaves `b` alone: a region when `b` is none of its arrays, a host stretch when `b` is numbered below its
    first result. -/
def keeps (b : Ref sig .tc) : ℕ → Bool
  | 4 => decide (∀ w, Pipeline.arrRef spec0 w ≠ b)
  | 10 => decide (∀ w, Pipeline.arrRef spec1 w ≠ b)
  | 12 => decide (∀ w, Pipeline.arrRef spec2 w ≠ b)
  | 17 => decide (∀ w, Pipeline.arrRef spec3 w ≠ b)
  | 19 => decide (∀ w, Pipeline.arrRef spec4 w ≠ b)
  | 26 => decide (∀ w, Pipeline.arrRef spec5 w ≠ b)
  | k => decide (b.idx.val < lo.getD k 0)

variable (m : (ℓ : Loc nD τ sig) → Buf (Elt F) ℓ) (ρ : Dev nD → PrngReg) (c : Dev nD)

/-- The buffer contents at the boundaries of @main, as one family. -/
def Wn : ℕ → Valuation τ sig (Elt F)
  | 0 => W0 m ρ c | 1 => W1 m ρ c | 2 => W2 m ρ c | 3 => W3 m ρ c | 4 => W4 m ρ c | 5 => W5 m ρ c | 6 => W6 m ρ c
  | 7 => W7 m ρ c | 8 => W8 m ρ c | 9 => W9 m ρ c | 10 => W10 m ρ c | 11 => W11 m ρ c | 12 => W12 m ρ c
  | 13 => W13 m ρ c | 14 => W14 m ρ c | 15 => W15 m ρ c | 16 => W16 m ρ c | 17 => W17 m ρ c | 18 => W18 m ρ c
  | 19 => W19 m ρ c | 20 => W20 m ρ c | 21 => W21 m ρ c | 22 => W22 m ρ c | 23 => W23 m ρ c | 24 => W24 m ρ c
  | 25 => W25 m ρ c | 26 => W26 m ρ c | 27 => W27 m ρ c | _ => W28 m ρ c

variable {m ρ c}

/-- One segment: a region rewrites only its arrays, a host stretch only its operations' results. -/
theorem step (b : Ref sig .tc) : ∀ k, k < 28 → keeps b k = true →
    Wn m ρ c (k + 1) (Proc.devRef .tc b) = Wn m ρ c k (Proc.devRef .tc b)
  | 4, _, h => W5_of_ne m ρ c b (of_decide_eq_true h)
  | 10, _, h => W11_of_ne m ρ c b (of_decide_eq_true h)
  | 12, _, h => W13_of_ne m ρ c b (of_decide_eq_true h)
  | 17, _, h => W18_of_ne m ρ c b (of_decide_eq_true h)
  | 19, _, h => W20_of_ne m ρ c b (of_decide_eq_true h)
  | 26, _, h => W27_of_ne m ρ c b (of_decide_eq_true h)
  | k + 28, hk, _ => absurd hk (by omega)
  | 0, _, h | 1, _, h | 2, _, h | 3, _, h | 5, _, h | 6, _, h | 7, _, h | 8, _, h | 9, _, h | 11, _, h
  | 13, _, h | 14, _, h | 15, _, h | 16, _, h | 18, _, h | 20, _, h | 21, _, h | 22, _, h | 23, _, h | 24, _, h
  | 25, _, h | 27, _, h =>
    StableHlo.after_of_forall_not_mem _ _ (List.forall_iff_forall_mem.mp (by
      repeat' apply And.intro
      all_goals exact Finset.notMem_singleton.2 (StableHlo.devRef_ne_of_ne (ne_of_idx_lt ((of_decide_eq_true h).trans_le (by decide))))))

/-- A buffer keeps its contents from boundary `i` to boundary `j` when every segment in between leaves it alone. -/
theorem keep (b : Ref sig .tc) (i j : ℕ)
    (h : i ≤ j ∧ j ≤ 28 ∧ ∀ k, i ≤ k → k < j → keeps b k = true := by decide) :
    Wn m ρ c j (Proc.devRef .tc b) = Wn m ρ c i (Proc.devRef .tc b) := by
  obtain ⟨hij, hj, h⟩ := h
  induction j, hij using Nat.le_induction with
  | base => rfl
  | succ j hij ih =>
    exact (step b j (by omega) (h j hij j.lt_succ_self)).trans (ih (by omega) fun k h1 h2 => h k h1 (by omega))

end Cert.KernelIdeal.Carry

end
-- ==== Proof.Combine.lean ====
import proofs.«411752_j33432025432297_2_alg».proof.Proof.Gen.KernelIdeal.Frame
import Idealize.ShloMosaic.Lib.StackMember
import Idealize.ShloMosaic.Lib.KernelVsHost
import Idealize.ShloMosaic.Lib.ValueLayout

noncomputable section

open scoped BigOperators
open Idealize.ShloMosaic Idealize.ShloMosaic.ValueIdx

namespace Cert.KernelIdeal.Combine

open Cert.KernelIdeal Cert.KernelIdeal.Gen

variable {m k n M : ℕ} {φ₁ φ₂ : FTy}

/-- The indices of an m × n matrix, and such a matrix of extended reals. -/
abbrev Ix (m n : ℕ) : Type := (⟨2, ![m, n]⟩ : Shape).Idx
abbrev Mat (m n : ℕ) : Type := Ix m n → EReal

theorem zeros : (![0, 0] : Fin 2 → ℕ) = fun _ => 0 := funext fun a => by fin_cases a <;> rfl

/-- The product of two matrices at an entry: the entry's row of the left against its column of the right. -/
def mm (x : Mat m k) (w : Mat k n) : Mat m n :=
  fun i => ∑ c : Fin k, x (ix2 (n0 := m) (i 0) c) * w (ix2 c (n1 := n) (i 1))

/-- The product plus a bias row read at the entry's column. -/
def aff (x : Mat m k) (w : Mat k n) (b : Mat 1 n) : Mat m n :=
  fun i => mm x w i + b (ix2 (0 : Fin 1) (n1 := n) (i 1))

theorem dot_eq_mm (x : FVec Ideal ⟨2, ![m, k]⟩ φ₁) (w : FVec Ideal ⟨2, ![k, n]⟩ φ₂) :
    Host.dotGeneral (DotDims.plain m k n) none x w = mm x w :=
  funext fun i => (congrArg _ (eq_ix2 i)).trans (StackMember.dotGeneral_plain_apply none x w (i 0) (i 1))

theorem matmul_eq_mm (x : FVec Ideal ⟨2, ![m, k]⟩ φ₁) (w : FVec Ideal ⟨2, ![k, n]⟩ φ₂) :
    matmul (DotDims.plain m k n) none x w (constant _ .f32 0x00000000#32) = mm x w :=
  (matmul_zero_eq_dotGeneral _ none x w).trans (dot_eq_mm x w)

/-- The reference's product plus its bias row spread down the rows. -/
theorem dot_bias_eq_aff (hb : (⟨2, ![1, n]⟩ : Shape).BroadcastsInDim ⟨2, ![m, n]⟩ ![0, 1]) (x : FVec Ideal ⟨2, ![m, k]⟩ φ₁)
    (w : FVec Ideal ⟨2, ![k, n]⟩ φ₂) (b : FVec Ideal ⟨2, ![1, n]⟩ .f32) :
    addf (Host.dotGeneral (DotDims.plain m k n) none x w) (broadcastInDim ⟨2, ![m, n]⟩ ![0, 1] hb b) = aff x w b := by
  rw [dot_eq_mm]
  exact funext fun i => congrArg (mm x w i + ·) ((congrArg _ (eq_ix2 i)).trans (broadcastInDim_oneRow_apply hb b (i 0) (i 1)))

/-- A block's product into a zero accumulator plus its bias row spread down the rows. -/
theorem matmul_bias_eq_aff (hb : (⟨2, ![1, n]⟩ : Shape).Broadcasts ⟨2, ![m, n]⟩) (x : FVec Ideal ⟨2, ![m, k]⟩ φ₁)
    (w : FVec Ideal ⟨2, ![k, n]⟩ φ₂) (b : FVec Ideal ⟨2, ![1, n]⟩ .f32) :
    addf (matmul (DotDims.plain m k n) none x w (constant _ .f32 0x00000000#32)) (broadcastTo ⟨2, ![m, n]⟩ b hb) = aff x w b := by
  rw [matmul_eq_mm]
  exact funext fun i => congrArg (mm x w i + ·) ((congrArg _ (eq_ix2 i)).trans (broadcastTo_1b_ab_apply b hb (i 0) (i 1)))

/-- `e` places a block of rows at row `off` of a taller matrix and keeps the columns. -/
def RowsAt (off : ℕ) (e : Ix m n → Ix M n) : Prop :=
  ∀ j, (e j 0 : ℕ) = off + j 0 ∧ (e j 1 : ℕ) = j 1

theorem RowsAt.eq {off : ℕ} {e e' : Ix m n → Ix M n} (he : RowsAt off e) (he' : RowsAt off e') (j : Ix m n) : e j = e' j :=
  Shape.idx_ext₂ ((he j).1.trans (he' j).1.symm) ((he j).2.trans (he' j).2.symm)

/-- The product of a block of rows is that block of the product. -/
theorem mm_rows {off : ℕ} {e : Ix m k → Ix M k} {e' : Ix m n → Ix M n} (he : RowsAt off e) (he' : RowsAt off e')
    (X : Mat M k) (W : Mat k n) (j : Ix m n) : mm (X ∘ e) W j = mm X W (e' j) := by
  refine Finset.sum_congr rfl fun c _ => ?_
  have h1 : e (ix2 (j 0) c) = ix2 (e' j 0) c := Shape.idx_ext₂ ((he _).1.trans (he' j).1.symm) (he _).2
  have h2 : j 1 = e' j 1 := Fin.ext (he' j).2.symm
  show X (e (ix2 (j 0) c)) * W (ix2 c (j 1)) = X (ix2 (e' j 0) c) * W (ix2 c (e' j 1))
  rw [h1, h2]
  rfl

theorem aff_rows {off : ℕ} {e : Ix m k → Ix M k} {e' : Ix m n → Ix M n} (he : RowsAt off e) (he' : RowsAt off e')
    (X : Mat M k) (W : Mat k n) (B : Mat 1 n) (j : Ix m n) : aff (X ∘ e) W B j = aff X W B (e' j) := by
  have h : j 1 = e' j 1 := Fin.ext (he' j).2.symm
  show mm (X ∘ e) W j + B (ix2 0 (j 1)) = mm X W (e' j) + B (ix2 0 (e' j 1))
  rw [mm_rows he he', h]

/-- Blocks of `m` rows placed at the multiples of `m` reach every entry of a matrix of at most `N * m` rows. -/
theorem cover_rows {N : ℕ} (hM : M ≤ N * m) {e : Fin N → Ix m n → Ix M n} (he : ∀ t, RowsAt (t.val * m) (e t))
    (i : Ix M n) : ∃ t y, e t y = i := by
  have h0 : (i 0).val < M := (i 0).isLt
  have hm : 0 < m := Nat.pos_of_ne_zero (by rintro rfl; omega)
  have ht : (i 0).val / m < N := Nat.div_lt_of_lt_mul (Nat.lt_of_lt_of_le h0 (Nat.mul_comm N m ▸ hM))
  exact ⟨⟨_, ht⟩, ix2 ⟨(i 0).val % m, Nat.mod_lt _ hm⟩ (i 1),
    Shape.idx_ext₂ ((he _ _).1.trans (Nat.div_add_mod' _ _)) (he _ _).2⟩

/-- The combine `A·Wn + b + X·Wr` of whole arrays, entry by entry. -/
def sage (A X : Mat M 64) (Wn Wr : Mat 64 64) (B : Mat 1 64) : Mat M 64 :=
  fun i => aff A Wn B i + mm X Wr i

/-- The larger of each entry and zero. -/
def relu {S : Shape} (f : S.Idx → EReal) : S.Idx → EReal := fun i => max (f i) (Ideal.ofBits .f32 0x00000000#32)

/-- The combine of blocks of rows of the two row arrays is that block of the combine. -/
theorem sage_rows {off : ℕ} {eA eX eO : Ix m 64 → Ix M 64} (hA : RowsAt off eA) (hX : RowsAt off eX) (hO : RowsAt off eO)
    (A X : Mat M 64) (Wn Wr : Mat 64 64) (B : Mat 1 64) (j : Ix m 64) :
    sage (A ∘ eA) (X ∘ eX) Wn Wr B j = sage A X Wn Wr B (eO j) :=
  congrArg₂ (· + ·) (aff_rows hA hO A Wn B j) (mm_rows hX hO X Wr j)

theorem relu_rows {S T : Shape} {f : S.Idx → EReal} {g : T.Idx → EReal} {j : S.Idx} {i : T.Idx} (h : f j = g i) :
    relu f j = relu g i :=
  congrArg (max · _) h

/-- What a grid point of a combine region without the final maximum stores, from its five blocks. -/
theorem pay3 (a x : Vec Ideal S10000x64 .f32) (wn wr : Vec Ideal S64x64 .f32) (b : Vec Ideal S1x64 .f32) :
    k3_pay1 (F := Ideal) a x wn wr b = sage a x wn wr b := by
  unfold k3_pay1
  simp only [shapeCast_self]
  rw [show dot_S10000x64_S64x64_S10000x64_1_0_0_1_n_n = DotDims.plain 10000 64 64 from rfl, matmul_bias_eq_aff, matmul_eq_mm]
  rfl

/-- With the final maximum. -/
theorem pay1 (a x : Vec Ideal S10000x64 .f32) (wn wr : Vec Ideal S64x64 .f32) (b : Vec Ideal S1x64 .f32) :
    k1_pay1 (F := Ideal) a x wn wr b = relu (sage a x wn wr b) := by
  rw [← pay3]; rfl

/-- The reference's chain of operations for the combine, on arrays of any number of rows. -/
theorem ref3 (hb : (⟨2, ![1, 64]⟩ : Shape).BroadcastsInDim ⟨2, ![M, 64]⟩ ![0, 1]) (A X : FVec Ideal ⟨2, ![M, 64]⟩ .f32)
    (Wn Wr : FVec Ideal ⟨2, ![64, 64]⟩ .f32) (B : FVec Ideal ⟨2, ![1, 64]⟩ .f32) :
    addf (addf (Host.dotGeneral (DotDims.plain M 64 64) none A Wn) (broadcastInDim ⟨2, ![M, 64]⟩ ![0, 1] hb B))
      (Host.dotGeneral (DotDims.plain M 64 64) none X Wr) = sage A X Wn Wr B := by
  rw [dot_bias_eq_aff, dot_eq_mm]; rfl

/-- With the final maximum against the zero scalar spread over the array. -/
theorem ref1 (hb : (⟨2, ![1, 64]⟩ : Shape).BroadcastsInDim ⟨2, ![M, 64]⟩ ![0, 1])
    (hz : (⟨0, ![]⟩ : Shape).BroadcastsInDim ⟨2, ![M, 64]⟩ ![]) (A X : FVec Ideal ⟨2, ![M, 64]⟩ .f32)
    (Wn Wr : FVec Ideal ⟨2, ![64, 64]⟩ .f32) (B : FVec Ideal ⟨2, ![1, 64]⟩ .f32) :
    maximumf (addf (addf (Host.dotGeneral (DotDims.plain M 64 64) none A Wn) (broadcastInDim ⟨2, ![M, 64]⟩ ![0, 1] hb B))
        (Host.dotGeneral (DotDims.plain M 64 64) none X Wr))
      (broadcastInDim ⟨2, ![M, 64]⟩ ![] hz (constant (F := Ideal) ⟨0, ![]⟩ .f32 0x00000000#32)) = relu (sage A X Wn Wr B) := by
  rw [ref3]; rfl

end Cert.KernelIdeal.Combine

end
-- ==== Proof.RegionEmbed.lean ====
import proofs.«411752_j33432025432297_2_alg».proof.Proof.Combine
import proofs.«411752_j33432025432297_2_alg».proof.ReferenceIdeal
import proofs.«411752_j33432025432297_2_alg».proof.Proof.Gen.ReferenceIdeal
import Idealize.ShloMosaic.Lib.Pipeline.Value

noncomputable section

open Idealize.ShloMosaic Idealize.ShloMosaic.TcCoe Idealize.SL.Sem
open Idealize.ShloMosaic.Pipeline (Dat)

namespace Cert.KernelIdeal.Embed

open Cert.KernelIdeal Cert.KernelIdeal.Gen Cert.KernelIdeal.Combine

variable {m M : ℕ}

/-- The layer `x·w + b + e` of whole arrays, entry by entry. -/
def embed (x : Mat M 74) (w : Mat 74 64) (b : Mat 1 64) (e : Mat M 64) : Mat M 64 :=
  fun i => aff x w b i + e i

/-- The layer of blocks of rows of the features and the embedding is that block of the layer. -/
theorem embed_rows {off : ℕ} {e0 : Ix m 74 → Ix M 74} {e3 e4 : Ix m 64 → Ix M 64} (h0 : RowsAt off e0) (h3 : RowsAt off e3)
    (h4 : RowsAt off e4) (X : Mat M 74) (W : Mat 74 64) (B : Mat 1 64) (E : Mat M 64) (j : Ix m 64) :
    embed (X ∘ e0) W B (E ∘ e3) j = embed X W B E (e4 j) :=
  congrArg₂ (· + ·) (aff_rows h0 h4 X W B j) (congrArg E (h3.eq h4 j))

/-- A grid point's output block, from its four input blocks. -/
theorem pay0 (x : Vec Ideal S5000x74 .f32) (w : Vec Ideal S74x64 .f32) (b : Vec Ideal S1x64 .f32) (e : Vec Ideal S5000x64 .f32) :
    k0_pay1 (F := Ideal) x w b e = embed x w b e := by
  unfold k0_pay1
  simp only [shapeCast_self]
  rw [show dot_S5000x74_S74x64_S5000x64_1_0_0_1_n_n = DotDims.plain 5000 74 64 from rfl, matmul_bias_eq_aff]
  rfl

/-- The reference's chain of operations for the layer. -/
theorem ref0 (hb : (⟨2, ![1, 64]⟩ : Shape).BroadcastsInDim ⟨2, ![M, 64]⟩ ![0, 1]) (X : FVec Ideal ⟨2, ![M, 74]⟩ .f32)
    (W : FVec Ideal ⟨2, ![74, 64]⟩ .f32) (B : FVec Ideal ⟨2, ![1, 64]⟩ .f32) (E : FVec Ideal ⟨2, ![M, 64]⟩ .f32) :
    addf (addf (Host.dotGeneral (DotDims.plain M 74 64) none X W) (broadcastInDim ⟨2, ![M, 64]⟩ ![0, 1] hb B)) E
      = embed X W B E := by
  rw [dot_bias_eq_aff]; rfl

theorem idx_facts : ∀ t : Fin cfg0.N,
    (∀ a : Fin 2, win0_1.index t a = 0 ∧ win0_2.index t a = 0)
    ∧ win0_0.index t (0 : Fin 2) = t.val ∧ win0_0.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features', the embedding's and the output's blocks at point t sit at row 5000 t. -/
theorem rows (t : Fin cfg0.N) :
    RowsAt (m := 5000) (M := 50000) (n := 74) (t.val * 5000) ((cfg0.win 0).blk t).view.emb
    ∧ RowsAt (m := 5000) (M := 50000) (n := 64) (t.val * 5000) ((cfg0.win 3).blk t).view.emb
    ∧ RowsAt (m := 5000) (M := 50000) (n := 64) (t.val * 5000) ((cfg0.win 4).blk t).view.emb := by
  obtain ⟨-, e00, e01, e30, e31, e40, e41⟩ := idx_facts t
  exact ⟨fun j => ⟨(win0_0.rect_emb_val t j 0).trans (congrArg (· * 5000 + (j 0 : ℕ)) e00), win0_0.rect_emb_val_of_index_zero t 1 e01 j⟩,
    fun j => ⟨(win0_3.rect_emb_val t j 0).trans (congrArg (· * 5000 + (j 0 : ℕ)) e30), win0_3.rect_emb_val_of_index_zero t 1 e31 j⟩,
    fun j => ⟨(win0_4.rect_emb_val t j 0).trans (congrArg (· * 5000 + (j 0 : ℕ)) e40), win0_4.rect_emb_val_of_index_zero t 1 e41 j⟩⟩

variable (V : (c : Dev nD) → (b : Ref sig .tc) → Buf (Elt Ideal) ((c : Thread nD τ).loc b))

/-- A grid point's output block is its block of the layer of the region's input arrays. -/
theorem flushed_eq (c : Dev nD) (t : Fin cfg0.N) :
    (dat0 (F := Ideal) V c).flushed 4 t = ((cfg0.win 4).blk t).view.read (Elt Ideal)
      (embed (V c main_arg2) (V c main_arg7) (V c main_v6) (V c main_v5)) := by
  obtain ⟨hz, -⟩ := idx_facts t
  obtain ⟨r0, r3, r4⟩ := rows t
  have w1 : iblk0 V c 1 t = V c main_arg7 := funext fun j => congrArg (V c main_arg7)
    (funext fun a => Fin.ext (win0_1.rect_emb_val_of_index_zero t a (hz a).1 j))
  have w2 : iblk0 V c 2 t = V c main_v6 := funext fun j => congrArg (V c main_v6)
    (funext fun a => Fin.ext (win0_2.rect_emb_val_of_index_zero t a (hz a).2 j))
  show (cfg0.win 4).cut (grid0.coords t) ((dat0 V c).after 4 t) = _
  rw [after0_4]
  unfold out0_4
  rw [View.canon_unit_zero zeros]
  simp only [View.ld_unit_zero (S := S5000x74) zeros, View.ld_unit_zero (S := S74x64) zeros,
    View.ld_unit_zero (S := S1x64) zeros, View.ld_unit_zero (S := S5000x64) zeros]
  rw [w1, w2, pay0]
  exact funext fun j => embed_rows r0 r3 r4 (V c main_arg2) _ _ (V c main_v5) j

theorem cover (i : S50000x64.Idx) :
    ∃ t : Fin cfg0.N, (cfg0.win 4).flush t = true ∧ i ∈ ((cfg0.win 4).blk t).view.set := by
  obtain ⟨t, y, rfl⟩ := cover_rows (N := 10) (m := 5000) (by decide) (fun t => (rows t).2.2) i
  exact ⟨t, flush0_4 t, View.emb_mem_set _ y⟩

end Cert.KernelIdeal.Embed

namespace Cert.KernelIdeal.Regions

open Cert.KernelIdeal Cert.KernelIdeal.Gen Idealize.ShloMosaic Idealize.ShloMosaic.TcCoe Idealize.SL.Sem

theorem region0_value (V : (c : Dev nD) → (b : Ref sig .tc) → Buf (Elt Ideal) ((c : Thread nD τ).loc b)) (c : Dev nD) :
    (dat0 (F := Ideal) V c).arrAt 4 cfg0.N
      = addf (F := Ideal) (addf (F := Ideal) (Host.dotGeneral (F := Ideal) (φ₁ := .f32) (φ₂ := .f32) Cert.ReferenceIdeal.dot_S50000x74_S74x64_S50000x64_1_0_0_1_n_n none
                      (V c main_arg2) (V c main_arg7))
                   (broadcastInDim Cert.ReferenceIdeal.S50000x64 ![0, 1]
                      Cert.ReferenceIdeal.Facts₀.bcast_S1x64_S50000x64_0_1 (V c main_v6)))
             (V c main_v5) :=
  ((dat0 (F := Ideal) V c).arrAt_eq_of_cover 4 _ (fun t _ => Embed.flushed_eq V c t) Embed.cover).trans
    (Embed.ref0 _ (V c main_arg2) (V c main_arg7) (V c main_v6) (V c main_v5)).symm

end Cert.KernelIdeal.Regions

end
-- ==== Proof.RegionSage1.lean ====
import proofs.«411752_j33432025432297_2_alg».proof.Proof.Combine
import proofs.«411752_j33432025432297_2_alg».proof.ReferenceIdeal
import proofs.«411752_j33432025432297_2_alg».proof.Proof.Gen.ReferenceIdeal
import Idealize.ShloMosaic.Lib.Pipeline.Value

noncomputable section

open Idealize.ShloMosaic Idealize.ShloMosaic.TcCoe Idealize.SL.Sem
open Idealize.ShloMosaic.Pipeline (Dat)

namespace Cert.KernelIdeal.Sage1

open Cert.KernelIdeal Cert.KernelIdeal.Gen Cert.KernelIdeal.Combine

theorem idx_facts : ∀ t : Fin cfg1.N,
    (∀ a : Fin 2, win1_2.index t a = 0 ∧ win1_3.index t a = 0 ∧ win1_4.index t a = 0)
    ∧ win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0 :=
  (by decide +kernel : ∀ t : Fin grid1.N, _)

/-- The two row inputs' blocks and the output's block at point t sit at row 10000 t. -/
theorem rows (t : Fin cfg1.N) :
    RowsAt (m := 10000) (M := 100000) (n := 64) (t.val * 10000) ((cfg1.win 0).blk t).view.emb
    ∧ RowsAt (m := 10000) (M := 100000) (n := 64) (t.val * 10000) ((cfg1.win 1).blk t).view.emb
    ∧ RowsAt (m := 10000) (M := 100000) (n := 64) (t.val * 10000) ((cfg1.win 5).blk t).view.emb := by
  obtain ⟨-, e00, e01, e10, e11, e50, e51⟩ := idx_facts t
  exact ⟨fun j => ⟨(win1_0.rect_emb_val t j 0).trans (congrArg (· * 10000 + (j 0 : ℕ)) e00), win1_0.rect_emb_val_of_index_zero t 1 e01 j⟩,
    fun j => ⟨(win1_1.rect_emb_val t j 0).trans (congrArg (· * 10000 + (j 0 : ℕ)) e10), win1_1.rect_emb_val_of_index_zero t 1 e11 j⟩,
    fun j => ⟨(win1_5.rect_emb_val t j 0).trans (congrArg (· * 10000 + (j 0 : ℕ)) e50), win1_5.rect_emb_val_of_index_zero t 1 e51 j⟩⟩

variable (V : (c : Dev nD) → (b : Ref sig .tc) → Buf (Elt Ideal) ((c : Thread nD τ).loc b))

/-- A grid point's output block is its block of the combine of the region's input arrays. -/
theorem flushed_eq (c : Dev nD) (t : Fin cfg1.N) :
    (dat1 (F := Ideal) V c).flushed 5 t = ((cfg1.win 5).blk t).view.read (Elt Ideal)
      (relu (sage (V c main_v32) (V c main_v4) (V c main_arg12) (V c main_arg14) (V c main_v33))) := by
  obtain ⟨hz, -⟩ := idx_facts t
  obtain ⟨r0, r1, r5⟩ := rows t
  have w2 : iblk1 V c 2 t = V c main_arg12 := funext fun j => congrArg (V c main_arg12)
    (funext fun a => Fin.ext (win1_2.rect_emb_val_of_index_zero t a (hz a).1 j))
  have w3 : iblk1 V c 3 t = V c main_v33 := funext fun j => congrArg (V c main_v33)
    (funext fun a => Fin.ext (win1_3.rect_emb_val_of_index_zero t a (hz a).2.1 j))
  have w4 : iblk1 V c 4 t = V c main_arg14 := funext fun j => congrArg (V c main_arg14)
    (funext fun a => Fin.ext (win1_4.rect_emb_val_of_index_zero t a (hz a).2.2 j))
  show (cfg1.win 5).cut (grid1.coords t) ((dat1 V c).after 5 t) = _
  rw [after1_5]
  unfold out1_5
  rw [View.canon_unit_zero zeros]
  simp only [View.ld_unit_zero (S := S10000x64) zeros, View.ld_unit_zero (S := S64x64) zeros, View.ld_unit_zero (S := S1x64) zeros]
  rw [w2, w3, w4, pay1]
  exact funext fun j => relu_rows (sage_rows r0 r1 r5 (V c main_v32) (V c main_v4) _ _ _ j)

theorem blocks_cover (i : S100000x64.Idx) :
    ∃ t : Fin cfg1.N, (cfg1.win 5).flush t = true ∧ i ∈ ((cfg1.win 5).blk t).view.set := by
  obtain ⟨t, y, rfl⟩ := cover_rows (N := 10) (m := 10000) (by decide) (fun t => (rows t).2.2) i
  exact ⟨t, flush1_5 t, View.emb_mem_set _ y⟩

end Cert.KernelIdeal.Sage1

namespace Cert.KernelIdeal.Regions

open Cert.KernelIdeal Cert.KernelIdeal.Gen

theorem region1_value (V : (c : Dev nD) → (b : Ref sig .tc) → Buf (Elt Ideal) ((c : Thread nD τ).loc b)) (c : Dev nD) :
    (Gen.dat1 (F := Ideal) V c).arrAt 5 cfg1.N =
      maximumf (addf (addf (Host.dotGeneral (φ₁ := .f32) (φ₂ := .f32) ReferenceIdeal.dot_S100000x64_S64x64_S100000x64_1_0_0_1_n_n none (V c main_v32) (V c main_arg12))
                           (broadcastInDim ReferenceIdeal.S100000x64 ![0, 1] ReferenceIdeal.Facts₀.bcast_S1x64_S100000x64_0_1 (V c main_v33)))
                     (Host.dotGeneral (φ₁ := .f32) (φ₂ := .f32) ReferenceIdeal.dot_S100000x64_S64x64_S100000x64_1_0_0_1_n_n none (V c main_v4) (V c main_arg14)))
               (broadcastInDim ReferenceIdeal.S100000x64 ![] ReferenceIdeal.Facts₀.bcast_S_S100000x64 (constant (F := Ideal) ReferenceIdeal.S_ .f32 0x00000000#32)) :=
  ((dat1 (F := Ideal) V c).arrAt_eq_of_cover 5 _ (fun t _ => Sage1.flushed_eq V c t) Sage1.blocks_cover).trans
    (Combine.ref1 _ _ (V c main_v32) (V c main_v4) (V c main_arg12) (V c main_arg14) (V c main_v33)).symm

end Cert.KernelIdeal.Regions

end
-- ==== Proof.RegionSage2.lean ====
import proofs.«411752_j33432025432297_2_alg».proof.Proof.Combine
import proofs.«411752_j33432025432297_2_alg».proof.ReferenceIdeal
import proofs.«411752_j33432025432297_2_alg».proof.Proof.Gen.ReferenceIdeal
import Idealize.ShloMosaic.Lib.Pipeline.Value

noncomputable section

open Idealize.ShloMosaic Idealize.ShloMosaic.TcCoe Idealize.SL.Sem
open Idealize.ShloMosaic.Pipeline (Dat)

namespace Cert.KernelIdeal.Sage2

open Cert.KernelIdeal Cert.KernelIdeal.Gen Cert.KernelIdeal.Combine

theorem idx_facts : ∀ t : Fin cfg2.N,
    (∀ a : Fin 2, win2_2.index t a = 0 ∧ win2_3.index t a = 0 ∧ win2_4.index t a = 0)
    ∧ win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0 :=
  (by decide +kernel : ∀ t : Fin grid2.N, _)

/-- The two row inputs' blocks and the output's block at point t sit at row 10000 t. -/
theorem rows (t : Fin cfg2.N) :
    RowsAt (m := 10000) (M := 50000) (n := 64) (t.val * 10000) ((cfg2.win 0).blk t).view.emb
    ∧ RowsAt (m := 10000) (M := 50000) (n := 64) (t.val * 10000) ((cfg2.win 1).blk t).view.emb
    ∧ RowsAt (m := 10000) (M := 50000) (n := 64) (t.val * 10000) ((cfg2.win 5).blk t).view.emb := by
  obtain ⟨-, e00, e01, e10, e11, e50, e51⟩ := idx_facts t
  exact ⟨fun j => ⟨(win2_0.rect_emb_val t j 0).trans (congrArg (· * 10000 + (j 0 : ℕ)) e00), win2_0.rect_emb_val_of_index_zero t 1 e01 j⟩,
    fun j => ⟨(win2_1.rect_emb_val t j 0).trans (congrArg (· * 10000 + (j 0 : ℕ)) e10), win2_1.rect_emb_val_of_index_zero t 1 e11 j⟩,
    fun j => ⟨(win2_5.rect_emb_val t j 0).trans (congrArg (· * 10000 + (j 0 : ℕ)) e50), win2_5.rect_emb_val_of_index_zero t 1 e51 j⟩⟩

variable (V : (c : Dev nD) → (b : Ref sig .tc) → Buf (Elt Ideal) ((c : Thread nD τ).loc b))

/-- A grid point's output block is its block of the combine of the region's input arrays. -/
theorem flushed_eq (c : Dev nD) (t : Fin cfg2.N) :
    (dat2 (F := Ideal) V c).flushed 5 t = ((cfg2.win 5).blk t).view.read (Elt Ideal)
      (relu (sage (V c main_v26) (V c main_v7) (V c main_arg9) (V c main_arg11) (V c main_v35))) := by
  obtain ⟨hz, -⟩ := idx_facts t
  obtain ⟨r0, r1, r5⟩ := rows t
  have w2 : iblk2 V c 2 t = V c main_arg9 := funext fun j => congrArg (V c main_arg9)
    (funext fun a => Fin.ext (win2_2.rect_emb_val_of_index_zero t a (hz a).1 j))
  have w3 : iblk2 V c 3 t = V c main_v35 := funext fun j => congrArg (V c main_v35)
    (funext fun a => Fin.ext (win2_3.rect_emb_val_of_index_zero t a (hz a).2.1 j))
  have w4 : iblk2 V c 4 t = V c main_arg11 := funext fun j => congrArg (V c main_arg11)
    (funext fun a => Fin.ext (win2_4.rect_emb_val_of_index_zero t a (hz a).2.2 j))
  show (cfg2.win 5).cut (grid2.coords t) ((dat2 V c).after 5 t) = _
  rw [after2_5]
  unfold out2_5
  rw [View.canon_unit_zero zeros]
  simp only [View.ld_unit_zero (S := S10000x64) zeros, View.ld_unit_zero (S := S64x64) zeros, View.ld_unit_zero (S := S1x64) zeros]
  rw [w2, w3, w4, show k2_pay1 (F := Ideal) = k1_pay1 from rfl, pay1]
  exact funext fun j => relu_rows (sage_rows r0 r1 r5 (V c main_v26) (V c main_v7) _ _ _ j)

theorem blocks_cover (i : S50000x64.Idx) :
    ∃ t : Fin cfg2.N, (cfg2.win 5).flush t = true ∧ i ∈ ((cfg2.win 5).blk t).view.set := by
  obtain ⟨t, y, rfl⟩ := cover_rows (N := 5) (m := 10000) (by decide) (fun t => (rows t).2.2) i
  exact ⟨t, flush2_5 t, View.emb_mem_set _ y⟩

end Cert.KernelIdeal.Sage2

namespace Cert.KernelIdeal.Regions

open Cert.KernelIdeal Cert.KernelIdeal.Gen

theorem region2_value (V : (c : Dev nD) → (b : Ref sig .tc) → Buf (Elt Ideal) ((c : Thread nD τ).loc b)) (c : Dev nD) :
    (Gen.dat2 (F := Ideal) V c).arrAt 5 cfg2.N =
      maximumf (addf (addf (Host.dotGeneral (φ₁ := .f32) (φ₂ := .f32) ReferenceIdeal.dot_S50000x64_S64x64_S50000x64_1_0_0_1_n_n none (V c main_v26) (V c main_arg9))
                           (broadcastInDim ReferenceIdeal.S50000x64 ![0, 1] ReferenceIdeal.Facts₀.bcast_S1x64_S50000x64_0_1 (V c main_v35)))
                     (Host.dotGeneral (φ₁ := .f32) (φ₂ := .f32) ReferenceIdeal.dot_S50000x64_S64x64_S50000x64_1_0_0_1_n_n none (V c main_v7) (V c main_arg11)))
               (broadcastInDim ReferenceIdeal.S50000x64 ![] ReferenceIdeal.Facts₀.bcast_S_S50000x64 (constant (F := Ideal) ReferenceIdeal.S_ .f32 0x00000000#32)) :=
  ((dat2 (F := Ideal) V c).arrAt_eq_of_cover 5 _ (fun t _ => Sage2.flushed_eq V c t) Sage2.blocks_cover).trans
    (Combine.ref1 _ _ (V c main_v26) (V c main_v7) (V c main_arg9) (V c main_arg11) (V c main_v35)).symm

end Cert.KernelIdeal.Regions

end
-- ==== Proof.RegionSage3.lean ====
import proofs.«411752_j33432025432297_2_alg».proof.Proof.Combine
import proofs.«411752_j33432025432297_2_alg».proof.ReferenceIdeal
import proofs.«411752_j33432025432297_2_alg».proof.Proof.Gen.ReferenceIdeal
import Idealize.ShloMosaic.Lib.Pipeline.Value

noncomputable section

open Idealize.ShloMosaic Idealize.ShloMosaic.TcCoe Idealize.SL.Sem
open Idealize.ShloMosaic.Pipeline (Dat)

namespace Cert.KernelIdeal.Sage3

open Cert.KernelIdeal Cert.KernelIdeal.Gen Cert.KernelIdeal.Combine

theorem idx_facts : ∀ t : Fin cfg3.N,
    (∀ a : Fin 2, win3_2.index t a = 0 ∧ win3_3.index t a = 0 ∧ win3_4.index t a = 0)
    ∧ win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0 :=
  (by decide +kernel : ∀ t : Fin grid3.N, _)

/-- The two row inputs' blocks and the output's block at point t sit at row 10000 t. -/
theorem rows (t : Fin cfg3.N) :
    RowsAt (m := 10000) (M := 100000) (n := 64) (t.val * 10000) ((cfg3.win 0).blk t).view.emb
    ∧ RowsAt (m := 10000) (M := 100000) (n := 64) (t.val * 10000) ((cfg3.win 1).blk t).view.emb
    ∧ RowsAt (m := 10000) (M := 100000) (n := 64) (t.val * 10000) ((cfg3.win 5).blk t).view.emb := by
  obtain ⟨-, e00, e01, e10, e11, e50, e51⟩ := idx_facts t
  exact ⟨fun j => ⟨(win3_0.rect_emb_val t j 0).trans (congrArg (· * 10000 + (j 0 : ℕ)) e00), win3_0.rect_emb_val_of_index_zero t 1 e01 j⟩,
    fun j => ⟨(win3_1.rect_emb_val t j 0).trans (congrArg (· * 10000 + (j 0 : ℕ)) e10), win3_1.rect_emb_val_of_index_zero t 1 e11 j⟩,
    fun j => ⟨(win3_5.rect_emb_val t j 0).trans (congrArg (· * 10000 + (j 0 : ℕ)) e50), win3_5.rect_emb_val_of_index_zero t 1 e51 j⟩⟩

variable (V : (c : Dev nD) → (b : Ref sig .tc) → Buf (Elt Ideal) ((c : Thread nD τ).loc b))

/-- A grid point's output block is its block of the combine of the region's input arrays. -/
theorem flushed_eq (c : Dev nD) (t : Fin cfg3.N) :
    (dat3 (F := Ideal) V c).flushed 5 t = ((cfg3.win 5).blk t).view.read (Elt Ideal)
      (sage (V c main_v48) (V c main_v34) (V c main_arg18) (V c main_arg20) (V c main_v49)) := by
  obtain ⟨hz, -⟩ := idx_facts t
  obtain ⟨r0, r1, r5⟩ := rows t
  have w2 : iblk3 V c 2 t = V c main_arg18 := funext fun j => congrArg (V c main_arg18)
    (funext fun a => Fin.ext (win3_2.rect_emb_val_of_index_zero t a (hz a).1 j))
  have w3 : iblk3 V c 3 t = V c main_v49 := funext fun j => congrArg (V c main_v49)
    (funext fun a => Fin.ext (win3_3.rect_emb_val_of_index_zero t a (hz a).2.1 j))
  have w4 : iblk3 V c 4 t = V c main_arg20 := funext fun j => congrArg (V c main_arg20)
    (funext fun a => Fin.ext (win3_4.rect_emb_val_of_index_zero t a (hz a).2.2 j))
  show (cfg3.win 5).cut (grid3.coords t) ((dat3 V c).after 5 t) = _
  rw [after3_5]
  unfold out3_5
  rw [View.canon_unit_zero zeros]
  simp only [View.ld_unit_zero (S := S10000x64) zeros, View.ld_unit_zero (S := S64x64) zeros, View.ld_unit_zero (S := S1x64) zeros]
  rw [w2, w3, w4, pay3]
  exact funext fun j => sage_rows r0 r1 r5 (V c main_v48) (V c main_v34) _ _ _ j

theorem blocks_cover (i : S100000x64.Idx) :
    ∃ t : Fin cfg3.N, (cfg3.win 5).flush t = true ∧ i ∈ ((cfg3.win 5).blk t).view.set := by
  obtain ⟨t, y, rfl⟩ := cover_rows (N := 10) (m := 10000) (by decide) (fun t => (rows t).2.2) i
  exact ⟨t, flush3_5 t, View.emb_mem_set _ y⟩

end Cert.KernelIdeal.Sage3

namespace Cert.KernelIdeal.Regions

open Cert.KernelIdeal Cert.KernelIdeal.Gen

theorem region3_value (V : (c : Dev nD) → (b : Ref sig .tc) → Buf (Elt Ideal) ((c : Thread nD τ).loc b)) (c : Dev nD) :
    (Gen.dat3 (F := Ideal) V c).arrAt 5 cfg3.N =
      addf (F := Ideal) (addf (Host.dotGeneral (φ₁ := .f32) (φ₂ := .f32) ReferenceIdeal.dot_S100000x64_S64x64_S100000x64_1_0_0_1_n_n none (V c main_v48) (V c main_arg18))
                              (broadcastInDim ReferenceIdeal.S100000x64 ![0, 1] ReferenceIdeal.Facts₀.bcast_S1x64_S100000x64_0_1 (V c main_v49)))
                        (Host.dotGeneral (φ₁ := .f32) (φ₂ := .f32) ReferenceIdeal.dot_S100000x64_S64x64_S100000x64_1_0_0_1_n_n none (V c main_v34) (V c main_arg20)) :=
  ((dat3 (F := Ideal) V c).arrAt_eq_of_cover 5 _ (fun t _ => Sage3.flushed_eq V c t) Sage3.blocks_cover).trans
    (Combine.ref3 _ (V c main_v48) (V c main_v34) (V c main_arg18) (V c main_arg20) (V c main_v49)).symm

end Cert.KernelIdeal.Regions

end
-- ==== Proof.RegionSage4.lean ====
import proofs.«411752_j33432025432297_2_alg».proof.Proof.Combine
import proofs.«411752_j33432025432297_2_alg».proof.ReferenceIdeal
import proofs.«411752_j33432025432297_2_alg».proof.Proof.Gen.ReferenceIdeal
import Idealize.ShloMosaic.Lib.Pipeline.Value

noncomputable section

open Idealize.ShloMosaic Idealize.ShloMosaic.TcCoe Idealize.SL.Sem
open Idealize.ShloMosaic.Pipeline (Dat)

namespace Cert.KernelIdeal.Sage4

open Cert.KernelIdeal Cert.KernelIdeal.Gen Cert.KernelIdeal.Combine

theorem idx_facts : ∀ t : Fin cfg4.N,
    (∀ a : Fin 2, win4_2.index t a = 0 ∧ win4_3.index t a = 0 ∧ win4_4.index t a = 0)
    ∧ win4_0.index t (0 : Fin 2) = t.val ∧ win4_0.index t (1 : Fin 2) = 0
    ∧ win4_1.index t (0 : Fin 2) = t.val ∧ win4_1.index t (1 : Fin 2) = 0
    ∧ win4_5.index t (0 : Fin 2) = t.val ∧ win4_5.index t (1 : Fin 2) = 0 :=
  (by decide +kernel : ∀ t : Fin grid4.N, _)

/-- The two row inputs' blocks and the output's block at point t sit at row 10000 t. -/
theorem rows (t : Fin cfg4.N) :
    RowsAt (m := 10000) (M := 50000) (n := 64) (t.val * 10000) ((cfg4.win 0).blk t).view.emb
    ∧ RowsAt (m := 10000) (M := 50000) (n := 64) (t.val * 10000) ((cfg4.win 1).blk t).view.emb
    ∧ RowsAt (m := 10000) (M := 50000) (n := 64) (t.val * 10000) ((cfg4.win 5).blk t).view.emb := by
  obtain ⟨-, e00, e01, e10, e11, e50, e51⟩ := idx_facts t
  exact ⟨fun j => ⟨(win4_0.rect_emb_val t j 0).trans (congrArg (· * 10000 + (j 0 : ℕ)) e00), win4_0.rect_emb_val_of_index_zero t 1 e01 j⟩,
    fun j => ⟨(win4_1.rect_emb_val t j 0).trans (congrArg (· * 10000 + (j 0 : ℕ)) e10), win4_1.rect_emb_val_of_index_zero t 1 e11 j⟩,
    fun j => ⟨(win4_5.rect_emb_val t j 0).trans (congrArg (· * 10000 + (j 0 : ℕ)) e50), win4_5.rect_emb_val_of_index_zero t 1 e51 j⟩⟩

variable (V : (c : Dev nD) → (b : Ref sig .tc) → Buf (Elt Ideal) ((c : Thread nD τ).loc b))

/-- A grid point's output block is its block of the combine of the region's input arrays. -/
theorem flushed_eq (c : Dev nD) (t : Fin cfg4.N) :
    (dat4 (F := Ideal) V c).flushed 5 t = ((cfg4.win 5).blk t).view.read (Elt Ideal)
      (sage (V c main_v42) (V c main_v36) (V c main_arg15) (V c main_arg17) (V c main_v51)) := by
  obtain ⟨hz, -⟩ := idx_facts t
  obtain ⟨r0, r1, r5⟩ := rows t
  have w2 : iblk4 V c 2 t = V c main_arg15 := funext fun j => congrArg (V c main_arg15)
    (funext fun a => Fin.ext (win4_2.rect_emb_val_of_index_zero t a (hz a).1 j))
  have w3 : iblk4 V c 3 t = V c main_v51 := funext fun j => congrArg (V c main_v51)
    (funext fun a => Fin.ext (win4_3.rect_emb_val_of_index_zero t a (hz a).2.1 j))
  have w4 : iblk4 V c 4 t = V c main_arg17 := funext fun j => congrArg (V c main_arg17)
    (funext fun a => Fin.ext (win4_4.rect_emb_val_of_index_zero t a (hz a).2.2 j))
  show (cfg4.win 5).cut (grid4.coords t) ((dat4 V c).after 5 t) = _
  rw [after4_5]
  unfold out4_5
  rw [View.canon_unit_zero zeros]
  simp only [View.ld_unit_zero (S := S10000x64) zeros, View.ld_unit_zero (S := S64x64) zeros, View.ld_unit_zero (S := S1x64) zeros]
  rw [w2, w3, w4, show k4_pay1 (F := Ideal) = k3_pay1 from rfl, pay3]
  exact funext fun j => sage_rows r0 r1 r5 (V c main_v42) (V c main_v36) _ _ _ j

theorem blocks_cover (i : S50000x64.Idx) :
    ∃ t : Fin cfg4.N, (cfg4.win 5).flush t = true ∧ i ∈ ((cfg4.win 5).blk t).view.set := by
  obtain ⟨t, y, rfl⟩ := cover_rows (N := 5) (m := 10000) (by decide) (fun t => (rows t).2.2) i
  exact ⟨t, flush4_5 t, View.emb_mem_set _ y⟩

end Cert.KernelIdeal.Sage4

namespace Cert.KernelIdeal.Regions

open Cert.KernelIdeal Cert.KernelIdeal.Gen

theorem region4_value (V : (c : Dev nD) → (b : Ref sig .tc) → Buf (Elt Ideal) ((c : Thread nD τ).loc b)) (c : Dev nD) :
    (Gen.dat4 (F := Ideal) V c).arrAt 5 cfg4.N =
      addf (F := Ideal) (addf (Host.dotGeneral (φ₁ := .f32) (φ₂ := .f32) ReferenceIdeal.dot_S50000x64_S64x64_S50000x64_1_0_0_1_n_n none (V c main_v42) (V c main_arg15))
                              (broadcastInDim ReferenceIdeal.S50000x64 ![0, 1] ReferenceIdeal.Facts₀.bcast_S1x64_S50000x64_0_1 (V c main_v51)))
                        (Host.dotGeneral (φ₁ := .f32) (φ₂ := .f32) ReferenceIdeal.dot_S50000x64_S64x64_S50000x64_1_0_0_1_n_n none (V c main_v36) (V c main_arg17)) :=
  ((dat4 (F := Ideal) V c).arrAt_eq_of_cover 5 _ (fun t _ => Sage4.flushed_eq V c t) Sage4.blocks_cover).trans
    (Combine.ref3 _ (V c main_v42) (V c main_v36) (V c main_arg15) (V c main_arg17) (V c main_v51)).symm

end Cert.KernelIdeal.Regions

end
-- ==== Proof.GatherRows.lean ====
import Idealize.ShloMosaic.PureOps.ShapeOps
import Idealize.ShloMosaic.Lib.ValueIdx
import Idealize.ShloMosaic.Lib.StableHlo.Predicate

namespace Cert.GatherRows

open Idealize.ShloMosaic

/-- `d` is the row indexing `table[idx]` of a matrix by a column of start indices. -/
def IsRows {N C n : Nat} (d : GatherDims ⟨2, ![N, C]⟩ ⟨2, ![n, 1]⟩ ⟨2, ![n, C]⟩) : Prop :=
  d.offsetDims = [1] ∧ d.collapsedSliceDims = [0] ∧ d.operandBatchingDims = [] ∧ d.startIndexMap = [0]
    ∧ d.indexVectorDim = 1 ∧ d.sliceSizes = ![1, C]

/-- Such a gather at (r, k) reads the table at row `idx r`, taken signed and clamped into [0, N − 1], and column `k`. -/
theorem gather_rows_apply {α : Type} {N C n w : Nat} (hN : 0 < N)
    (d : GatherDims ⟨2, ![N, C]⟩ ⟨2, ![n, 1]⟩ ⟨2, ![n, C]⟩) (hd : IsRows d)
    (x : (⟨2, ![N, C]⟩ : Shape).Idx → α) (idx : IVec ⟨2, ![n, 1]⟩ w) (r : Fin n) (k : Fin C) :
    Host.gather d x idx (ValueIdx.ix2 r k)
      = x (ValueIdx.ix2 ⟨min (idx (StableHlo.Predicate.ixP r)).toInt.toNat (N - 1), by omega⟩ k) := by
  obtain ⟨hoff, hcoll, hob, hsim, hivd, hss⟩ := hd
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have e : ∀ X : Fin 2, X ∈ d.batchDims →
        ((ValueIdx.ix2 r k : (⟨2, ![n, C]⟩ : Shape).Idx) X).val = r.val := by
      intro X hX
      have hX' : X ∉ d.offsetDims := of_decide_eq_true (List.mem_filter.1 hX).2
      rw [hoff] at hX'
      match X with
      | ⟨0, _⟩ => rfl
      | ⟨1, _⟩ => exact absurd (List.mem_singleton.mpr rfl) hX'
    have hsi : d.siIdx (ValueIdx.ix2 r k) ⟨d.startIndexMap.idxOf 0, List.idxOf_lt_length_iff.2 hm⟩
        = StableHlo.Predicate.ixP r := by
      funext b
      match b with
      | ⟨0, _⟩ =>
        unfold GatherDims.siIdx
        rw [dif_neg (by rw [hivd]; simp)]
        unfold GatherDims.siCoord
        apply Fin.ext
        simp only [Fin.val_cast]
        exact e _ (List.getElem_mem _)
      | ⟨1, _⟩ =>
        unfold GatherDims.siIdx
        rw [dif_pos (by rw [hivd])]
        apply Fin.ext
        show List.idxOf (0 : Fin 2) d.startIndexMap = 0
        rw [hsim]; simp
    show d.start (ValueIdx.ix2 r k) idx 0 + d.batchCoord (ValueIdx.ix2 r k) 0 + d.offCoord (ValueIdx.ix2 r k) 0
      = min (idx (StableHlo.Predicate.ixP r)).toInt.toNat (N - 1)
    rw [d.batchCoord_eq_zero _ _ (hb 0), d.offCoord_eq_zero _ _ hk]
    simp only [Nat.add_zero]
    unfold GatherDims.start
    rw [dif_pos hm, hsi, show d.sliceSizes 0 = 1 by rw [hss]; rfl]
    rfl
  | ⟨1, _⟩ =>
    have hk : (1 : Fin 2) ∈ d.sKept := by
      rw [GatherDims.mem_sKept, hcoll]; exact ⟨by simp, hb 1⟩
    have hm : (1 : Fin 2) ∉ d.startIndexMap := by rw [hsim]; simp
    have e : ∀ X : Fin 2, X ∈ d.offsetDims →
        ((ValueIdx.ix2 r k : (⟨2, ![n, C]⟩ : Shape).Idx) X).val = k.val := by
      intro X hX
      rw [hoff] at hX
      match X with
      | ⟨0, _⟩ => exact absurd (congrArg Fin.val (List.mem_singleton.mp hX)) Nat.zero_ne_one
      | ⟨1, _⟩ => rfl
    show d.start (ValueIdx.ix2 r k) idx 1 + d.batchCoord (ValueIdx.ix2 r k) 1 + d.offCoord (ValueIdx.ix2 r k) 1 = k.val
    rw [d.batchCoord_eq_zero _ _ (hb 1), Nat.add_zero]
    unfold GatherDims.start GatherDims.offCoord
    rw [dif_neg hm, dif_pos hk, Nat.zero_add]
    exact e _ (List.getElem_mem _)

/-- Two row gathers of one table whose index columns agree at rows `r` and `r'` read the same table row there. -/
theorem gather_rows_congr {α : Type} {N C n n' w : Nat} (hN : 0 < N)
    (d : GatherDims ⟨2, ![N, C]⟩ ⟨2, ![n, 1]⟩ ⟨2, ![n, C]⟩)
    (d' : GatherDims ⟨2, ![N, C]⟩ ⟨2, ![n', 1]⟩ ⟨2, ![n', C]⟩) (hd : IsRows d) (hd' : IsRows d')
    (x : (⟨2, ![N, C]⟩ : Shape).Idx → α) (idx : IVec ⟨2, ![n, 1]⟩ w) (idx' : IVec ⟨2, ![n', 1]⟩ w)
    (r : Fin n) (r' : Fin n') (k : Fin C)
    (h : idx (StableHlo.Predicate.ixP r) = idx' (StableHlo.Predicate.ixP r')) :
    Host.gather d x idx (ValueIdx.ix2 r k) = Host.gather d' x idx' (ValueIdx.ix2 r' k) := by
  rw [gather_rows_apply hN d hd x idx r k, gather_rows_apply hN d' hd' x idx' r' k]
  simp only [h]

end Cert.GatherRows
-- ==== Proof.RegionDot.lean ====
import proofs.«411752_j33432025432297_2_alg».proof.Proof.Combine
import proofs.«411752_j33432025432297_2_alg».proof.Proof.Gen.ReferenceIdeal
import proofs.«411752_j33432025432297_2_alg».proof.Proof.GatherRows
import Idealize.ShloMosaic.Lib.StableHlo.Predicate
import Idealize.ShloMosaic.Lib.Pipeline.Value
import Idealize.ShloMosaic.PureOps.Ideal.Laws

noncomputable section

namespace Cert.KernelIdeal.DotTail

open Cert.KernelIdeal Cert.KernelIdeal.Gen Idealize.ShloMosaic Idealize.ShloMosaic.TcCoe Idealize.SL.Sem
open Idealize.ShloMosaic.Pipeline (Dat)
open Cert.KernelIdeal.Combine (RowsAt zeros)
open scoped BigOperators

/-- Row `r` of a grid point's output block: row `r` of the one input block against row `r` of the other. -/
theorem rowdot_apply (x0 x1 : Vec Ideal S8192x64 .f32) (r : Fin 8192) :
    (k5_pay1 (F := Ideal) x0 x1) (ValueIdx.ix1 r)
      = ∑ k : Fin 64, x0 (ValueIdx.ix2 r k) * x1 (ValueIdx.ix2 r k) := by
  unfold k5_pay1
  simp only [shapeCast_self]
  refine (Ideal.multiReduction_add_single (mulf x0 x1) 0x00000000#32 reduces_S8192x64_S8192 (.inl rfl) rfl
    (ValueIdx.ix1 r)).trans (Finset.sum_congr rfl fun k _ => ?_)
  rw [show reduces_S8192x64_S8192.lift (ValueIdx.ix1 r) k = ValueIdx.ix2 r k from
    funext fun a => Fin.ext (by match a with | ⟨0, _⟩ => rfl | ⟨1, _⟩ => rfl)]
  rfl

variable (V : (c : Dev nD) → (b : Ref sig .tc) → Buf (Elt Ideal) ((c : Thread nD τ).loc b))

/-- Row `i` of the first array against row `i` of the second. -/
abbrev rowDots (a b : S507904x64.Idx → EReal) : S507904.Idx → EReal := fun i =>
  ∑ k : Fin 64, a (ValueIdx.ix2 (⟨(i 0).val, (i 0).isLt⟩ : Fin 507904) k) * b (ValueIdx.ix2 (⟨(i 0).val, (i 0).isLt⟩ : Fin 507904) k)

/-- Row `r` of two blocks of rows placed at row `off` is row `off + r` of the arrays. -/
theorem rowDots_rows {off : ℕ} {e0 e1 : S8192x64.Idx → S507904x64.Idx} (h0 : RowsAt off e0) (h1 : RowsAt off e1)
    (a b : S507904x64.Idx → EReal) (r : Fin 8192) (i : S507904.Idx) (hi : (i 0 : ℕ) = off + r) :
    ∑ k : Fin 64, a (e0 (ValueIdx.ix2 r k)) * b (e1 (ValueIdx.ix2 r k)) = rowDots a b i :=
  Finset.sum_congr rfl fun k _ => by
    rw [show e0 (ValueIdx.ix2 r k) = ValueIdx.ix2 (⟨(i 0).val, (i 0).isLt⟩ : Fin 507904) k from
        Shape.idx_ext₂ ((h0 _).1.trans hi.symm) (h0 _).2,
      show e1 (ValueIdx.ix2 r k) = ValueIdx.ix2 (⟨(i 0).val, (i 0).isLt⟩ : Fin 507904) k from
        Shape.idx_ext₂ ((h1 _).1.trans hi.symm) (h1 _).2]

theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 1) = t.val :=
  (by decide +kernel : ∀ t : Fin grid5.N, _)

/-- A grid point's output block is its block of the row products of the region's two input arrays. -/
theorem flushed_eq (c : Dev nD) (t : Fin cfg5.N) :
    (dat5 (F := Ideal) V c).flushed 2 t
      = ((cfg5.win 2).blk t).view.read (Elt Ideal) (rowDots (V c main_v59) (V c main_v60)) := by
  obtain ⟨e00, e01, e10, e11, e2⟩ := block_index t
  have r0 : RowsAt (m := 8192) (M := 507904) (n := 64) (t.val * 8192) ((cfg5.win 0).blk t).view.emb := fun j =>
    ⟨(win5_0.rect_emb_val t j 0).trans (congrArg (· * 8192 + (j 0 : ℕ)) e00), win5_0.rect_emb_val_of_index_zero t 1 e01 j⟩
  have r1 : RowsAt (m := 8192) (M := 507904) (n := 64) (t.val * 8192) ((cfg5.win 1).blk t).view.emb := fun j =>
    ⟨(win5_1.rect_emb_val t j 0).trans (congrArg (· * 8192 + (j 0 : ℕ)) e10), win5_1.rect_emb_val_of_index_zero t 1 e11 j⟩
  show (cfg5.win 2).cut (grid5.coords t) ((dat5 V c).after 2 t) = _
  rw [after5_2]
  unfold out5_2
  rw [View.canon_unit_zero (funext fun a => by fin_cases a; rfl)]
  simp only [View.ld_unit_zero (S := S8192x64) zeros]
  exact funext fun j => (congrArg (k5_pay1 (F := Ideal) _ _) (ValueIdx.eq_ix1 j)).trans ((rowdot_apply _ _ (j 0)).trans
    (rowDots_rows r0 r1 (V c main_v59) (V c main_v60) (j 0) _
      ((win5_2.rect_emb_val t j 0).trans (congrArg (· * 8192 + (j 0 : ℕ)) e2))))

/-- The 62 blocks of 8192 rows reach every row. -/
theorem cover (i : S507904.Idx) :
    ∃ t : Fin cfg5.N, (cfg5.win 2).flush t = true ∧ i ∈ ((cfg5.win 2).blk t).view.set := by
  have hi : (i 0).val < 507904 := (i 0).isLt
  have ht : (i 0).val / 8192 < cfg5.N := by rw [show cfg5.N = 62 from N_5]; omega
  obtain ⟨-, -, -, -, e2⟩ := block_index ⟨_, ht⟩
  have h : ((cfg5.win 2).blk ⟨_, ht⟩).view.emb (ValueIdx.ix1 (⟨(i 0).val % 8192, Nat.mod_lt _ (by decide)⟩ : Fin 8192)) = i :=
    funext fun a => Fin.ext (by
      match a with
      | ⟨0, _⟩ => exact (win5_2.rect_emb_val _ _ 0).trans ((congrArg (· * 8192 + _) e2).trans (Nat.div_add_mod' _ _)))
  exact ⟨_, flush5_2 _, h ▸ View.emb_mem_set _ _⟩

theorem region5_value (c : Dev nD) (r : Fin 507904) :
    (dat5 (F := Ideal) V c).arrAt 2 cfg5.N (ValueIdx.ix1 r)
      = rowDots (V c main_v59) (V c main_v60) (ValueIdx.ix1 r) :=
  congrFun ((dat5 (F := Ideal) V c).arrAt_eq_of_cover 2 _ (fun t _ => flushed_eq V c t) cover) (ValueIdx.ix1 r)

section Tail

open Idealize.ShloMosaic.ValueIdx (ix1 ix2)
open Idealize.ShloMosaic.StableHlo.Predicate (ixP)

/-- The 500000 indices followed by 7904 copies of `z`. -/
abbrev padK (e : IVec S500000 32) (z : IVec S_ 32) : IVec S507904 32 :=
  pad S507904 ![0] ![7904] ![0] e z pads_S500000_S507904_079040 h_S_

/-- A negative index has the table's length `M` added, over the padded indices. -/
abbrev wrapK (M : BitVec 32) (p : IVec S507904 32) : IVec S507904 32 :=
  select (cmpi .slt p (broadcastInDim S507904 ![] bcast_S_S507904 (constantI S_ 32 0#32)))
    (addi p (broadcastInDim S507904 ![] bcast_S_S507904 (constantI S_ 32 M))) p

/-- The same over the 500000 indices. -/
abbrev wrapR (M : BitVec 32) (e : IVec Cert.ReferenceIdeal.S500000 32) : IVec Cert.ReferenceIdeal.S500000 32 :=
  select (cmpi .slt e (broadcastInDim Cert.ReferenceIdeal.S500000 ![] Cert.ReferenceIdeal.Gen.bcast_S_S500000 (constantI Cert.ReferenceIdeal.S_ 32 0#32)))
    (addi e (broadcastInDim Cert.ReferenceIdeal.S500000 ![] Cert.ReferenceIdeal.Gen.bcast_S_S500000 (constantI Cert.ReferenceIdeal.S_ 32 M))) e

/-- The same on one word. -/
abbrev wrapAt (M x : BitVec 32) : BitVec 32 := Scalar.select (IntOp.cmpi .slt x 0#32) (IntOp.addi x M) x

/-- A row of more than one entry laid as a column, read at row `r`. -/
theorem col_apply {n w : ℕ} (hn : n ≠ 1) (h : (⟨1, ![n]⟩ : Shape).BroadcastsInDim ⟨2, ![n, 1]⟩ ![0]) (v : IVec ⟨1, ![n]⟩ w)
    (r : Fin n) : broadcastInDim ⟨2, ![n, 1]⟩ ![0] h v (ixP r) = v (ix1 r) :=
  broadcastInDim_apply _ h v _ (ix1 r) fun a => by match a with | ⟨0, _⟩ => exact (if_neg hn).symm

/-- Below row 500000 the padded, wrapped index column is the unpadded, wrapped one. -/
theorem colK_eq_colR (M : BitVec 32) (e : IVec S500000 32) (z : IVec S_ 32) (r : Fin 500000) :
    broadcastInDim S507904x1 ![0] bcast_S507904_S507904x1_0 (wrapK M (padK e z)) (ixP (⟨r.val, by omega⟩ : Fin 507904))
      = broadcastInDim Cert.ReferenceIdeal.S500000x1 ![0] Cert.ReferenceIdeal.Gen.bcast_S500000_S500000x1_0 (wrapR M e) (ixP r) := by
  have hp : padK e z (ix1 (⟨r.val, by omega⟩ : Fin 507904)) = e (ix1 r) :=
    pad_apply_of_inside ![0] ![7904] ![0] e z pads_S500000_S507904_079040 h_S_ _ (ix1 r) fun a => by
      match a with
      | ⟨0, _⟩ => show r.val = 0 + r.val * (0 + 1); omega
  rw [col_apply (by decide), col_apply (by decide)]
  show wrapAt M (padK e z _) = wrapAt M (e _)
  rw [hp]

/-- Below row 500000 the two index columns agree, so the padded and the unpadded gathers read the same table rows. -/
theorem tail_value (ou : FVec Ideal S100000x64 .f32) (og : FVec Ideal S50000x64 .f32) (e0 e1 : IVec S500000 32)
    (z0 z1 : IVec S_ 32) (y59 y60 : FVec Ideal S507904x64 .f32) (y61 : FVec Ideal S507904 .f32)
    (h59 : y59 = Host.gather gather_S100000x64_S507904x1_S507904x64_1_0_n_n_0_1_164 ou
      (broadcastInDim S507904x1 ![0] bcast_S507904_S507904x1_0 (wrapK 100000#32 (padK e0 z0))))
    (h60 : y60 = Host.gather gather_S50000x64_S507904x1_S507904x64_1_0_n_n_0_1_164 og
      (broadcastInDim S507904x1 ![0] bcast_S507904_S507904x1_0 (wrapK 50000#32 (padK e1 z1))))
    (h61 : ∀ r : Fin 507904, y61 (ix1 r) = ∑ k : Fin 64, y59 (ix2 r k) * y60 (ix2 r k)) :
    extractStridedSlice S500000 ![0] y61 slices_S507904_S500000_0
      = Host.reduceAdd (F := Ideal)
          (mulf
            (Host.gather Cert.ReferenceIdeal.gather_S100000x64_S500000x1_S500000x64_1_0_n_n_0_1_164 ou
              (broadcastInDim Cert.ReferenceIdeal.S500000x1 ![0] Cert.ReferenceIdeal.Gen.bcast_S500000_S500000x1_0 (wrapR 100000#32 e0)))
            (Host.gather Cert.ReferenceIdeal.gather_S50000x64_S500000x1_S500000x64_1_0_n_n_0_1_164 og
              (broadcastInDim Cert.ReferenceIdeal.S500000x1 ![0] Cert.ReferenceIdeal.Gen.bcast_S500000_S500000x1_0 (wrapR 50000#32 e1))))
          (constant (F := Ideal) Cert.ReferenceIdeal.S_ .f32 0x00000000#32)
          Cert.ReferenceIdeal.Gen.reducesTo_S500000x64_S500000_d1 Cert.ReferenceIdeal.Gen.h_S_ := by
  funext i
  obtain ⟨r, rfl⟩ : ∃ r : Fin 500000, i = ix1 r := ⟨i 0, ValueIdx.eq_ix1 i⟩
  have hr : r.val < 500000 := r.isLt
  rw [extractStridedSlice_apply ![0] y61 slices_S507904_S500000_0 (ix1 r) (ix1 (⟨r.val, by omega⟩ : Fin 507904)) (fun a => by
      match a with
      | ⟨0, _⟩ => show r.val = 0 + r.val; omega), h61]
  simp only [Host.reduceAdd, Ideal.hostReduceAdd_def]
  rw [Ideal.hostReduceAdd_single Cert.ReferenceIdeal.Gen.reducesTo_S500000x64_S500000_d1 (by decide),
    show constant (F := Ideal) Cert.ReferenceIdeal.S_ .f32 0x00000000#32
      (Shape.Idx.first Cert.ReferenceIdeal.Gen.h_S_) = 0 from Ideal.ofBits_zero_f32, zero_add]
  refine Finset.sum_congr rfl fun (k : Fin 64) _ => ?_
  rw [show ∀ (h : Cert.ReferenceIdeal.S500000x64.Reduces [1] Cert.ReferenceIdeal.S500000), h.lift (ix1 r) k = ix2 r k from
    fun h => funext fun a => Fin.ext (by match a with | ⟨0, _⟩ => rfl | ⟨1, _⟩ => rfl), ValueIdx.mulf_apply, h59, h60]
  exact congrArg₂ (· * ·)
    (Cert.GatherRows.gather_rows_congr (by decide) _ _ ⟨rfl, rfl, rfl, rfl, rfl, rfl⟩ ⟨rfl, rfl, rfl, rfl, rfl, rfl⟩ ou _ _
      (⟨r.val, by omega⟩ : Fin 507904) r k (colK_eq_colR 100000#32 e0 z0 r))
    (Cert.GatherRows.gather_rows_congr (by decide) _ _ ⟨rfl, rfl, rfl, rfl, rfl, rfl⟩ ⟨rfl, rfl, rfl, rfl, rfl, rfl⟩ og _ _
      (⟨r.val, by omega⟩ : Fin 507904) r k (colK_eq_colR 50000#32 e1 z1 r))

end Tail

end Cert.KernelIdeal.DotTail

end
-- ==== Proof.KValue.lean ====
import proofs.«411752_j33432025432297_2_alg».proof.Proof.Gen.KernelIdeal.Frame
import proofs.«411752_j33432025432297_2_alg».proof.Proof.Gen.KernelIdeal
import proofs.«411752_j33432025432297_2_alg».proof.Proof.Gen.ReferenceIdeal
import proofs.«411752_j33432025432297_2_alg».proof.Proof.Gen.ReferenceIdeal.Read
import proofs.«411752_j33432025432297_2_alg».proof.Proof.Gen.Pre_finite_inputs
import proofs.«411752_j33432025432297_2_alg».proof.Proof.PreDecode
import proofs.«411752_j33432025432297_2_alg».proof.Proof.HostStages
import proofs.«411752_j33432025432297_2_alg».proof.Proof.HostTakes
import proofs.«411752_j33432025432297_2_alg».proof.Proof.Carry
import proofs.«411752_j33432025432297_2_alg».proof.Proof.RegionEmbed
import proofs.«411752_j33432025432297_2_alg».proof.Proof.RegionSage1
import proofs.«411752_j33432025432297_2_alg».proof.Proof.RegionSage2
import proofs.«411752_j33432025432297_2_alg».proof.Proof.RegionSage3
import proofs.«411752_j33432025432297_2_alg».proof.Proof.RegionSage4
import proofs.«411752_j33432025432297_2_alg».proof.Proof.RegionDot
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.Carry Cert.KernelIdeal.HostStages Cert.KernelIdeal.HostTakes
  Cert.KernelIdeal.Regions Cert.KernelIdeal.DotTail Cert.ReferenceIdeal.Read Idealize.ShloMosaic Idealize.ShloMosaic.TcCoe
  Idealize.SL.Sem Idealize.ShloMosaic.StableHlo
open Cert.PreDecode (InRange)

variable (m : (ℓ : Loc nD τ sig) → Buf (Elt Ideal) ℓ) (ρ : Dev nD → PrngReg) (c : Dev nD)

/-- Argument `b` of @main as launched. -/
abbrev arg (b : Ref sig .tc) := m ((c : Thread nD τ).loc b)

theorem ranges (hpre : Cert.Pre_KernelIdeal m) : InRange 100000 (arg m c main_arg0) ∧ InRange 50000 (arg m c main_arg1) ∧
    InRange 100000 (Cert.PreDecode.row0E (arg m c main_arg3)) ∧ InRange 50000 (Cert.PreDecode.row1E (arg m c main_arg3)) ∧
    InRange 100000 (Cert.PreDecode.row0L (arg m c main_arg4)) ∧ InRange 50000 (Cert.PreDecode.row1L (arg m c main_arg4)) :=
  Cert.PreDecode.ranges_of_fn _ _ _ _ _ _ _ _ _ _ _ _ _ _ _ _ _ _ _ _ _ (hpre c)

/-- A vector reshaped to one row is the vector broadcast along a new leading unit axis. -/
theorem row_reshape_eq_bcast {α : Type} (x : (⟨1, ![64]⟩ : Shape).Idx → α) (h : (⟨1, ![64]⟩ : Shape).ShapeCasts ⟨2, ![1, 64]⟩)
    (hb : (⟨1, ![64]⟩ : Shape).BroadcastsInDim ⟨2, ![1, 64]⟩ ![1]) :
    shapeCast ⟨2, ![1, 64]⟩ x h = broadcastInDim ⟨2, ![1, 64]⟩ ![1] hb x := by
  funext j
  obtain ⟨u, i, rfl⟩ : ∃ (u : Fin 1) (i : Fin 64), j = ValueIdx.ix2 u i := ⟨j 0, j 1, ValueIdx.eq_ix2 j⟩
  rw [ValueIdx.shapeCast_a_1a_apply]
  exact (broadcastInDim_apply _ hb x _ (ValueIdx.ix1 i) (fun b => by
    have hb0 : b = 0 := Subsingleton.elim _ _
    subst hb0; rfl)).symm

theorem w1_v1 : Wn m ρ c 1 (Proc.devRef .tc main_v1) = val_main_v1 (F := Ideal) (arg m c main_arg3) := s0_v1 _

theorem w1_v3 : Wn m ρ c 1 (Proc.devRef .tc main_v3) = val_main_v3 (F := Ideal) (arg m c main_arg3) := s0_v3 _

theorem w2_v4 (hpre : Cert.Pre_KernelIdeal m) : Wn m ρ c 2 (Proc.devRef .tc main_v4) = val_main_v10 (F := Ideal) (arg m c main_arg0) (arg m c main_arg5) := by
  refine (take0_1 (Wn m ρ c 1) ?_).trans ?_
  · rw [keep main_arg0 0 1]; exact (ranges m c hpre).1
  · rw [keep main_arg5 0 1, keep main_arg0 0 1]; rfl

theorem w3_v5 (hpre : Cert.Pre_KernelIdeal m) : Wn m ρ c 3 (Proc.devRef .tc main_v5) = val_main_v21 (F := Ideal) (arg m c main_arg1) (arg m c main_arg6) := by
  refine (take0_2 (Wn m ρ c 2) ?_).trans ?_
  · rw [keep main_arg1 0 2]; exact (ranges m c hpre).2.1
  · rw [keep main_arg6 0 2, keep main_arg1 0 2]; rfl

theorem w4_v6 : Wn m ρ c 4 (Proc.devRef .tc main_v6) = val_main_v12 (F := Ideal) (arg m c main_arg8) := by
  refine (s03_v6 (Wn m ρ c 3)).trans ?_
  rw [keep main_arg8 0 3]
  exact row_reshape_eq_bcast _ _ _

theorem w5_v7 (hpre : Cert.Pre_KernelIdeal m) : Wn m ρ c 5 (Proc.devRef .tc main_v7) = val_main_v22 (F := Ideal) (arg m c main_arg1) (arg m c main_arg2) (arg m c main_arg6) (arg m c main_arg7) (arg m c main_arg8) := by
  refine (W5_arr m ρ c 4).trans ?_
  rw [region0_value (V4 m ρ) c, show V4 m ρ c main_arg2 = _ from keep main_arg2 0 4,
    show V4 m ρ c main_arg7 = _ from keep main_arg7 0 4, show V4 m ρ c main_v6 = _ from w4_v6 m ρ c,
    show V4 m ρ c main_v5 = _ from (keep main_v5 3 4).trans (w3_v5 m ρ c hpre)]
  rfl

theorem w6_v14 : Wn m ρ c 6 (Proc.devRef .tc main_v14) = val_main_v65 (F := Ideal) (arg m c main_arg3) := by
  refine (s1_v14 (Wn m ρ c 5)).trans ?_
  rw [keep main_v3 1 5, w1_v3 m ρ c]
  rfl

theorem w6_v20 : Wn m ρ c 6 (Proc.devRef .tc main_v20) = val_main_v39 (F := Ideal) (arg m c main_arg3) := by
  refine (s1_v20 (Wn m ρ c 5)).trans ?_
  rw [keep main_v1 1 5, w1_v1 m ρ c]
  rfl

theorem w7_v21 (hpre : Cert.Pre_KernelIdeal m) : Wn m ρ c 7 (Proc.devRef .tc main_v21) = val_main_v55 (F := Ideal) (arg m c main_arg0) (arg m c main_arg3) (arg m c main_arg5) := by
  refine (take1_1 (Wn m ρ c 6) ?_).trans ?_
  · rw [keep main_v1 1 6, w1_v1 m ρ c]; exact (ranges m c hpre).2.2.1
  · rw [keep main_v4 2 6, w2_v4 m ρ c hpre, keep main_v1 1 6, w1_v1 m ρ c]; rfl

theorem w8_v26 (hpre : Cert.Pre_KernelIdeal m) : Wn m ρ c 8 (Proc.devRef .tc main_v26) = val_main_v67 (F := Ideal) (arg m c main_arg0) (arg m c main_arg3) (arg m c main_arg5) := by
  refine (s12_v26 (Wn m ρ c 7)).trans ?_
  rw [keep main_v3 1 7, w1_v3 m ρ c, w7_v21 m ρ c hpre, keep main_v14 6 7, w6_v14 m ρ c]
  rfl

theorem w9_v27 (hpre : Cert.Pre_KernelIdeal m) : Wn m ρ c 9 (Proc.devRef .tc main_v27) = val_main_v29 (F := Ideal) (arg m c main_arg1) (arg m c main_arg2) (arg m c main_arg3) (arg m c main_arg6) (arg m c main_arg7) (arg m c main_arg8) := by
  refine (take1_3 (Wn m ρ c 8) ?_).trans ?_
  · rw [keep main_v3 1 8, w1_v3 m ρ c]; exact (ranges m c hpre).2.2.2.1
  · rw [keep main_v7 5 8, w5_v7 m ρ c hpre, keep main_v3 1 8, w1_v3 m ρ c]; rfl

theorem w10_v32 (hpre : Cert.Pre_KernelIdeal m) : Wn m ρ c 10 (Proc.devRef .tc main_v32) = val_main_v41 (F := Ideal) (arg m c main_arg1) (arg m c main_arg2) (arg m c main_arg3) (arg m c main_arg6) (arg m c main_arg7) (arg m c main_arg8) := by
  refine (s14_v32 (Wn m ρ c 9)).trans ?_
  rw [keep main_v1 1 9, w1_v1 m ρ c, w9_v27 m ρ c hpre, keep main_v20 6 9, w6_v20 m ρ c]
  rfl

theorem w10_v33 : Wn m ρ c 10 (Proc.devRef .tc main_v33) = val_main_v43 (F := Ideal) (arg m c main_arg13) := by
  refine (s14_v33 (Wn m ρ c 9)).trans ?_
  rw [keep main_arg13 0 9]
  exact row_reshape_eq_bcast _ _ _

theorem w11_v34 (hpre : Cert.Pre_KernelIdeal m) : Wn m ρ c 11 (Proc.devRef .tc main_v34) = val_main_v48 (F := Ideal) (arg m c main_arg0) (arg m c main_arg1) (arg m c main_arg2) (arg m c main_arg3) (arg m c main_arg5) (arg m c main_arg6) (arg m c main_arg7) (arg m c main_arg8) (arg m c main_arg12) (arg m c main_arg13) (arg m c main_arg14) := by
  refine (W11_arr m ρ c 5).trans ?_
  rw [region1_value (V10 m ρ) c, show V10 m ρ c main_v32 = _ from w10_v32 m ρ c hpre,
    show V10 m ρ c main_arg12 = _ from keep main_arg12 0 10, show V10 m ρ c main_v33 = _ from w10_v33 m ρ c,
    show V10 m ρ c main_v4 = _ from (keep main_v4 2 10).trans (w2_v4 m ρ c hpre),
    show V10 m ρ c main_arg14 = _ from keep main_arg14 0 10]
  rfl

theorem w12_v35 : Wn m ρ c 12 (Proc.devRef .tc main_v35) = val_main_v69 (F := Ideal) (arg m c main_arg10) := by
  refine (s2_v35 (Wn m ρ c 11)).trans ?_
  rw [keep main_arg10 0 11]
  exact row_reshape_eq_bcast _ _ _

theorem w13_v36 (hpre : Cert.Pre_KernelIdeal m) : Wn m ρ c 13 (Proc.devRef .tc main_v36) = val_main_v74 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) := by
  refine (W13_arr m ρ c 5).trans ?_
  rw [region2_value (V12 m ρ) c, show V12 m ρ c main_v26 = _ from (keep main_v26 8 12).trans (w8_v26 m ρ c hpre),
    show V12 m ρ c main_arg9 = _ from keep main_arg9 0 12, show V12 m ρ c main_v35 = _ from w12_v35 m ρ c,
    show V12 m ρ c main_v7 = _ from (keep main_v7 5 12).trans (w5_v7 m ρ c hpre),
    show V12 m ρ c main_arg11 = _ from keep main_arg11 0 12]
  rfl

theorem w14_v37 (hpre : Cert.Pre_KernelIdeal m) : Wn m ρ c 14 (Proc.devRef .tc main_v37) = val_main_v106 (F := Ideal) (arg m c main_arg0) (arg m c main_arg1) (arg m c main_arg2) (arg m c main_arg3) (arg m c main_arg5) (arg m c main_arg6) (arg m c main_arg7) (arg m c main_arg8) (arg m c main_arg12) (arg m c main_arg13) (arg m c main_arg14) := by
  refine (take3 (Wn m ρ c 13) ?_).trans ?_
  · rw [keep main_v1 1 13, w1_v1 m ρ c]; exact (ranges m c hpre).2.2.1
  · rw [keep main_v34 11 13, w11_v34 m ρ c hpre, keep main_v1 1 13, w1_v1 m ρ c]; rfl

theorem w15_v42 (hpre : Cert.Pre_KernelIdeal m) : Wn m ρ c 15 (Proc.devRef .tc main_v42) = val_main_v118 (F := Ideal) (arg m c main_arg0) (arg m c main_arg1) (arg m c main_arg2) (arg m c main_arg3) (arg m c main_arg5) (arg m c main_arg6) (arg m c main_arg7) (arg m c main_arg8) (arg m c main_arg12) (arg m c main_arg13) (arg m c main_arg14) := by
  refine (s31_v42 (Wn m ρ c 14)).trans ?_
  rw [keep main_v3 1 14, w1_v3 m ρ c, w14_v37 m ρ c hpre, keep main_v14 6 14, w6_v14 m ρ c]
  rfl

theorem w16_v43 (hpre : Cert.Pre_KernelIdeal m) : Wn m ρ c 16 (Proc.devRef .tc main_v43) = val_main_v81 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) := by
  refine (take3_2 (Wn m ρ c 15) ?_).trans ?_
  · rw [keep main_v3 1 15, w1_v3 m ρ c]; exact (ranges m c hpre).2.2.2.1
  · rw [keep main_v36 13 15, w13_v36 m ρ c hpre, keep main_v3 1 15, w1_v3 m ρ c]; rfl

theorem w17_v48 (hpre : Cert.Pre_KernelIdeal m) : Wn m ρ c 17 (Proc.devRef .tc main_v48) = val_main_v93 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) := by
  refine (s33_v48 (Wn m ρ c 16)).trans ?_
  rw [keep main_v1 1 16, w1_v1 m ρ c, w16_v43 m ρ c hpre, keep main_v20 6 16, w6_v20 m ρ c]
  rfl

theorem w17_v49 : Wn m ρ c 17 (Proc.devRef .tc main_v49) = val_main_v95 (F := Ideal) (arg m c main_arg19) := by
  refine (s33_v49 (Wn m ρ c 16)).trans ?_
  rw [keep main_arg19 0 16]
  exact row_reshape_eq_bcast _ _ _

theorem w18_v50 (hpre : Cert.Pre_KernelIdeal m) : Wn m ρ c 18 (Proc.devRef .tc main_v50) = val_main_v99 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg18) (arg m c main_arg19) (arg m c main_arg20) := by
  refine (W18_arr m ρ c 5).trans ?_
  rw [region3_value (V17 m ρ) c, show V17 m ρ c main_v48 = _ from w17_v48 m ρ c hpre,
    show V17 m ρ c main_arg18 = _ from keep main_arg18 0 17, show V17 m ρ c main_v49 = _ from w17_v49 m ρ c,
    show V17 m ρ c main_v34 = _ from (keep main_v34 11 17).trans (w11_v34 m ρ c hpre),
    show V17 m ρ c main_arg20 = _ from keep main_arg20 0 17]
  rfl

theorem w19_v51 : Wn m ρ c 19 (Proc.devRef .tc main_v51) = val_main_v120 (F := Ideal) (arg m c main_arg16) := by
  refine (s4_v51 (Wn m ρ c 18)).trans ?_
  rw [keep main_arg16 0 18]
  exact row_reshape_eq_bcast _ _ _

theorem w20_v52 (hpre : Cert.Pre_KernelIdeal m) : Wn m ρ c 20 (Proc.devRef .tc main_v52) = val_main_v124 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) := by
  refine (W20_arr m ρ c 5).trans ?_
  rw [region4_value (V19 m ρ) c, show V19 m ρ c main_v42 = _ from (keep main_v42 15 19).trans (w15_v42 m ρ c hpre),
    show V19 m ρ c main_arg15 = _ from keep main_arg15 0 19, show V19 m ρ c main_v51 = _ from w19_v51 m ρ c,
    show V19 m ρ c main_v36 = _ from (keep main_v36 13 19).trans (w13_v36 m ρ c hpre),
    show V19 m ρ c main_arg17 = _ from keep main_arg17 0 19]
  rfl

/-- A column padded with trailing zeros stays in range. -/
theorem inRange_pad {N : Nat} (e : IVec S500000 32) (he : InRange N e) (z : IVec S_ 32) (hz : ∀ k, z k = 0#32)
    (h0 : IntOp.cmpi .slt 0#32 (BitVec.ofNat 32 N) = 1#1) : InRange N (padK e z) := by
  intro i
  unfold padK pad
  split
  · exact he _
  · rw [hz]; exact ⟨by decide, h0⟩

theorem w21_v54 : Wn m ρ c 21 (Proc.devRef .tc main_v54) = val_main_v126 (F := Ideal) (arg m c main_arg4) := by
  refine (s5_v54 (Wn m ρ c 20)).trans ?_
  rw [keep main_arg4 0 20]
  rfl

theorem w21_v56 : Wn m ρ c 21 (Proc.devRef .tc main_v56) = val_main_v135 (F := Ideal) (arg m c main_arg4) := by
  refine (s5_v56 (Wn m ρ c 20)).trans ?_
  rw [keep main_arg4 0 20]
  rfl

theorem w22_v57 : Wn m ρ c 22 (Proc.devRef .tc main_v57) = padK (val_main_v126 (F := Ideal) (arg m c main_arg4)) (constantI S_ 32 0#32) := by
  refine (s51_v57 (Wn m ρ c 21)).trans ?_
  rw [w21_v54 m ρ c, show Wn m ρ c 21 (Proc.devRef .tc main_c) = _ from s5_c _]

theorem w24_v58 : Wn m ρ c 24 (Proc.devRef .tc main_v58) = padK (val_main_v135 (F := Ideal) (arg m c main_arg4)) (constantI S_ 32 0#32) := by
  refine (s53_v58 (Wn m ρ c 23)).trans ?_
  rw [keep main_v56 21 23, w21_v56 m ρ c, show Wn m ρ c 23 (Proc.devRef .tc main_c_8) = _ from s52_c8 _]

theorem w25_v59 (hpre : Cert.Pre_KernelIdeal m) : Wn m ρ c 25 (Proc.devRef .tc main_v59) =
    Host.gather gather_S100000x64_S507904x1_S507904x64_1_0_n_n_0_1_164 (val_main_v99 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg18) (arg m c main_arg19) (arg m c main_arg20))
      (broadcastInDim S507904x1 ![0] bcast_S507904_S507904x1_0
        (wrapK 100000#32 (padK (val_main_v126 (F := Ideal) (arg m c main_arg4)) (constantI S_ 32 0#32)))) := by
  refine (take5_4 (Wn m ρ c 24) ?_).trans ?_
  · rw [keep main_v57 22 24, w22_v57 m ρ c]
    exact inRange_pad _ (ranges m c hpre).2.2.2.2.1 _ (fun _ => rfl) (by decide)
  · rw [keep main_v50 18 24, w18_v50 m ρ c hpre, keep main_v57 22 24, w22_v57 m ρ c]

theorem w26_v60 (hpre : Cert.Pre_KernelIdeal m) : Wn m ρ c 26 (Proc.devRef .tc main_v60) =
    Host.gather gather_S50000x64_S507904x1_S507904x64_1_0_n_n_0_1_164 (val_main_v124 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17))
      (broadcastInDim S507904x1 ![0] bcast_S507904_S507904x1_0
        (wrapK 50000#32 (padK (val_main_v135 (F := Ideal) (arg m c main_arg4)) (constantI S_ 32 0#32)))) := by
  refine (take5_5 (Wn m ρ c 25) ?_).trans ?_
  · rw [keep main_v58 24 25, w24_v58 m ρ c]
    exact inRange_pad _ (ranges m c hpre).2.2.2.2.2 _ (fun _ => rfl) (by decide)
  · rw [keep main_v52 20 25, w20_v52 m ρ c hpre, keep main_v58 24 25, w24_v58 m ρ c]

theorem w28_v62 (hpre : Cert.Pre_KernelIdeal m) : Wn m ρ c 28 (Proc.devRef .tc main_v62) = val_main_v144 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  refine (s6_v62 (Wn m ρ c 27)).trans ?_
  rw [show Wn m ρ c 27 (Proc.devRef .tc main_v61) = _ from W27_arr m ρ c 2]
  exact tail_value _ _ _ _ _ _ (V26 m ρ c main_v59) (V26 m ρ c main_v60) _
    ((keep main_v59 25 26).trans (w25_v59 m ρ c hpre)) (w26_v60 m ρ c hpre) (fun r => region5_value (V26 m ρ) c r)

end Cert.KernelIdeal.KValue

end
-- ==== Proof.lean ====
import proofs.«411752_j33432025432297_2_alg».proof.Defs
import proofs.«411752_j33432025432297_2_alg».proof.Proof.Gen.Kernel
import proofs.«411752_j33432025432297_2_alg».proof.Proof.Gen.Kernel.Frame
import proofs.«411752_j33432025432297_2_alg».proof.Proof.Gen.KernelIdeal
import proofs.«411752_j33432025432297_2_alg».proof.Proof.Gen.KernelIdeal.Frame
import proofs.«411752_j33432025432297_2_alg».proof.Proof.Gen.ReferenceIdeal
import proofs.«411752_j33432025432297_2_alg».proof.Proof.Gen.Pre_finite_inputs
import proofs.«411752_j33432025432297_2_alg».proof.Proof.Gen.ReferenceIdeal.Run
import proofs.«411752_j33432025432297_2_alg».proof.Proof.Gen.ReferenceIdeal.Read
import proofs.«411752_j33432025432297_2_alg».proof.Proof.FrameResult
import proofs.«411752_j33432025432297_2_alg».proof.Proof.KValue
import Idealize.ShloMosaic.Adequacy
import Idealize.ShloMosaic.Init

noncomputable section

namespace Cert.Proof

open Idealize.ShloMosaic Idealize.ShloMosaic.TcCoe Idealize.SL.Sem

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the reference's last stage of the argument arrays, on which the two memories agree. -/
theorem algebraic : Cert.algebraic_KernelIdeal_ReferenceIdeal := by
  intro m ρ m' ρ' hpre hagree
  refine ⟨fun c => Cert.KernelIdeal.Gen.W28 m ρ c (Proc.devRef .tc Cert.KernelIdeal.main_v62),
    Cert.KernelIdeal.Result.frame_result m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v144_eq m' c).trans ?_).trans (Cert.KernelIdeal.KValue.w28_v62 m ρ c hpre).symm
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_referenceIdeal, trivial,
    algebraic⟩

end Cert.Proof

end
